-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg20 : FVec F S128 .f32) (main_arg21 : FVec F S10x128 .f32) (main_arg22 : FVec F S10 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S10x128 .f32 := Host.absf main_arg21
  let main_cst_36 : FVec F S_ .f32 := constant S_ .f32 0x7F800000#32
  let main_v95 : FVec F S10x128 .f32 := broadcastInDim S10x128 ![] bcast_S_S10x128 main_cst_36
  let main_v96 : IVec S10x128 1 := cmpf .olt main_v94 main_v95
  let main_c_37 : IVec S_ 1 := constantI S_ 1 1#1
  let main_v97 : IVec S_ 1 := (fun x v => Host.reduce IntOp.andi x v reducesTo_S10x128_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64 .f32) (main_arg18 : FVec F S64 .f32) (main_arg19 : FVec F S128x64 .f32) (main_arg20 : FVec F S128 .f32) (main_arg21 : FVec F S10x128 .f32) (main_arg22 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S128x64 .f32) (main_arg20 : FVec F S128 .f32) (main_arg21 : FVec F S10x128 .f32) (main_arg22 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S128x64 .f32) (main_arg20 : FVec F S128 .f32) (main_arg21 : FVec F S10x128 .f32) (main_arg22 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S128x64 .f32) (main_arg20 : FVec F S128 .f32) (main_arg21 : FVec F S10x128 .f32) (main_arg22 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x1 .f32) (main_arg1 : IVec S2x800000 32) (main_arg2 : IVec S50000 32) (main_arg3 : FVec F S1x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S128x64 .f32) (main_arg20 : FVec F S128 .f32) (main_arg21 : FVec F S10x128 .f32) (main_arg22 : FVec F S10 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x1 : Shape := ⟨2, ![10000, 1]⟩
abbrev S10000x64 : Shape := ⟨2, ![10000, 64]⟩
abbrev S850000x64 : Shape := ⟨2, ![850000, 64]⟩
abbrev S5000x64 : Shape := ⟨2, ![5000, 64]⟩
abbrev S64x1 : Shape := ⟨2, ![64, 1]⟩
abbrev S64x10 : Shape := ⟨2, ![64, 10]⟩
abbrev S64x128 : Shape := ⟨2, ![64, 128]⟩
abbrev S1x128 : Shape := ⟨2, ![1, 128]⟩
abbrev S128x10 : Shape := ⟨2, ![128, 10]⟩
abbrev S1x10 : Shape := ⟨2, ![1, 10]⟩

abbrev nBuf : Space → Nat
  | .hbm => 196
  | .vmem => 87
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S1x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S128x64, .f32⟩
  | 20 => ⟨S128, .f32⟩
  | 21 => ⟨S10x128, .f32⟩
  | 22 => ⟨S10, .f32⟩
  | 23 => ⟨S50000, .i32⟩
  | 24 => ⟨S1x800000, .i32⟩
  | 25 => ⟨S800000, .i32⟩
  | 26 => ⟨S850000, .i32⟩
  | 27 => ⟨S1x800000, .i32⟩
  | 28 => ⟨S800000, .i32⟩
  | 29 => ⟨S850000, .i32⟩
  | 30 => ⟨S_, .f32⟩
  | 31 => ⟨S850000, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S50000x64, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x1, .f32⟩
  | 76 => ⟨S850000x64, .f32⟩
  | 77 => ⟨S850000x64, .f32⟩
  | 78 => ⟨S_, .f32⟩
  | 79 => ⟨S50000x64, .f32⟩
  | 80 => ⟨S850000x1, .i32⟩
  | 81 => ⟨S50000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S50000x64, .f32⟩
  | 93 => ⟨S50000x64, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x64, .f32⟩
  | 103 => ⟨S850000x1, .f32⟩
  | 104 => ⟨S850000x64, .f32⟩
  | 105 => ⟨S850000x64, .f32⟩
  | 106 => ⟨S_, .f32⟩
  | 107 => ⟨S50000x64, .f32⟩
  | 108 => ⟨S850000x1, .i32⟩
  | 109 => ⟨S50000x64, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S50000x64, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x1, .f32⟩

abbrev hbmTy0_1 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S1x64, .f32⟩
  | 20 => ⟨S50000x64, .f32⟩
  | 21 => ⟨S50000x64, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x64, .f32⟩
  | 31 => ⟨S850000x1, .f32⟩
  | 32 => ⟨S850000x64, .f32⟩
  | 33 => ⟨S850000x64, .f32⟩
  | 34 => ⟨S_, .f32⟩
  | 35 => ⟨S50000x64, .f32⟩
  | 36 => ⟨S850000x1, .i32⟩
  | 37 => ⟨S50000x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S50000x64, .f32⟩
  | 49 => ⟨S50000x1, .i32⟩
  | 50 => ⟨S64, .i32⟩
  | 51 => ⟨S1x64, .i32⟩
  | 52 => ⟨S50000x64, .i32⟩
  | 53 => ⟨S50000x64, .i32⟩
  | 54 => ⟨S50000x64, .i1⟩
  | 55 => ⟨S50000x64, .bf16⟩
  | 56 => ⟨S50000x64, .f32⟩
  | 57 => ⟨S_, .f32⟩
  | 58 => ⟨S64, .f32⟩
  | 59 => ⟨S64x64, .f32⟩
  | 60 => ⟨S_, .f32⟩
  | 61 => ⟨S_, .f32⟩
  | 62 => ⟨S64, .f32⟩
  | 63 => ⟨S64, .f32⟩
  | 64 => ⟨S64x1, .f32⟩
  | 65 => ⟨S64x64, .f32⟩
  | 66 => ⟨S64x64, .f32⟩
  | 67 => ⟨S64x10, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S64, .f32⟩
  | .local _ .vmem, ⟨13, _⟩ => ⟨S1x64, .f32⟩
  | .local _ .vmem, ⟨14, _⟩ => ⟨S1x64, .f32⟩
  | .local _ .vmem, ⟨15, _⟩ => ⟨S64, .f32⟩
  | .local _ .vmem, ⟨16, _⟩ => ⟨S64, .f32⟩
  | .local _ .vmem, ⟨17, _⟩ => ⟨S5000x64, .f32⟩
  | .local _ .vmem, ⟨18, _⟩ => ⟨S5000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S5000x64, .f32⟩
  | .local _ .vmem, ⟨25, _⟩ => ⟨S5000x64, .f32⟩
  | .local _ .vmem, ⟨26, _⟩ => ⟨S64, .f32⟩
  | .local _ .vmem, ⟨27, _⟩ => ⟨S1x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S64, .f32⟩
  | .local _ .vmem, ⟨32, _⟩ => ⟨S1x64, .f32⟩
  | .local _ .vmem, ⟨33, _⟩ => ⟨S1x64, .f32⟩
  | .local _ .vmem, ⟨34, _⟩ => ⟨S64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S10000x64, .f32⟩
  | .local _ .vmem, ⟨42, _⟩ => ⟨S10000x64, .f32⟩
  | .local _ .vmem, ⟨43, _⟩ => ⟨S5000x64, .f32⟩
  | .local _ .vmem, ⟨44, _⟩ => ⟨S5000x64, .f32⟩
  | .local _ .vmem, ⟨45, _⟩ => ⟨S64, .f32⟩
  | .local _ .vmem, ⟨46, _⟩ => ⟨S1x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S64, .f32⟩
  | .local _ .vmem, ⟨51, _⟩ => ⟨S1x64, .f32⟩
  | .local _ .vmem, ⟨52, _⟩ => ⟨S1x64, .f32⟩
  | .local _ .vmem, ⟨53, _⟩ => ⟨S64, .f32⟩
  | .local _ .vmem, ⟨54, _⟩ => ⟨S64, .f32⟩
  | .local _ .vmem, ⟨55, _⟩ => ⟨S5000x64, .f32⟩
  | .local _ .vmem, ⟨56, _⟩ => ⟨S5000x64, .f32⟩
  | .local _ .vmem, ⟨57, _⟩ => ⟨S10000x64, .f32⟩
  | .local _ .vmem, ⟨58, _⟩ => ⟨S10000x64, .f32⟩
  | .local _ .vmem, ⟨59, _⟩ => ⟨S64x64, .f32⟩
  | .local _ .vmem, ⟨60, _⟩ => ⟨S10000x64, .f32⟩
  | .local _ .vmem, ⟨61, _⟩ => ⟨S10000x64, .f32⟩
  | .local _ .vmem, ⟨62, _⟩ => ⟨S5000x64, .f32⟩
  | .local _ .vmem, ⟨63, _⟩ => ⟨S5000x64, .f32⟩
  | .local _ .vmem, ⟨64, _⟩ => ⟨S64, .f32⟩
  | .local _ .vmem, ⟨65, _⟩ => ⟨S1x64, .f32⟩
  | .local _ .vmem, ⟨66, _⟩ => ⟨S1x64, .f32⟩
  | .local _ .vmem, ⟨67, _⟩ => ⟨S5000x64, .f32⟩
  | .local _ .vmem, ⟨68, _⟩ => ⟨S5000x64, .f32⟩
  | .local _ .vmem, ⟨69, _⟩ => ⟨S64, .f32⟩
  | .local _ .vmem, ⟨70, _⟩ => ⟨S1x64, .f32⟩
  | .local _ .vmem, ⟨71, _⟩ => ⟨S1x64, .f32⟩
  | .local _ .vmem, ⟨72, _⟩ => ⟨S64, .f32⟩
  | .local _ .vmem, ⟨73, _⟩ => ⟨S64, .f32⟩
  | .local _ .vmem, ⟨74, _⟩ => ⟨S5000x64, .f32⟩
  | .local _ .vmem, ⟨75, _⟩ => ⟨S5000x64, .f32⟩
  | .local _ .vmem, ⟨76, _⟩ => ⟨S5000x64, .bf16⟩
  | .local _ .vmem, ⟨77, _⟩ => ⟨S5000x64, .bf16⟩
  | .local _ .vmem, ⟨78, _⟩ => ⟨S5000x64, .f32⟩
  | .local _ .vmem, ⟨79, _⟩ => ⟨S5000x64, .f32⟩
  | .local _ .vmem, ⟨80, _⟩ => ⟨S64x64, .f32⟩
  | .local _ .vmem, ⟨81, _⟩ => ⟨S64x64, .f32⟩
  | .local _ .vmem, ⟨82, _⟩ => ⟨S128x64, .f32⟩
  | .local _ .vmem, ⟨83, _⟩ => ⟨S128, .f32⟩
  | .local _ .vmem, ⟨84, _⟩ => ⟨S10x128, .f32⟩
  | .local _ .vmem, ⟨85, _⟩ => ⟨S10, .f32⟩
  | .local _ .vmem, ⟨86, _⟩ => ⟨S64x10, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_7 : Ref sig .tc := ⟨.hbm, 66, rfl⟩
abbrev main_v32 : Ref sig .tc := ⟨.hbm, 67, rfl⟩
abbrev main_v33 : Ref sig .tc := ⟨.hbm, 68, rfl⟩
abbrev main_c_8 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45_0 : Ref sig .tc := ⟨.hbm, 82, rfl⟩
abbrev main_v45_1 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_cst_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67_0 : Ref sig .tc := ⟨.hbm, 110, rfl⟩
abbrev main_v67_1 : Ref sig .tc := ⟨.hbm, 111, rfl⟩
abbrev main_cst_15 : Ref sig .tc := ⟨.hbm, 112, rfl⟩
abbrev main_v68 : Ref sig .tc := ⟨.hbm, 113, rfl⟩
abbrev main_v69 : Ref sig .tc := ⟨.hbm, 114, rfl⟩
abbrev main_cst_16 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_17 : Ref sig .tc := ⟨.hbm, 122, rfl⟩
abbrev main_v76 : Ref sig .tc := ⟨.hbm, 123, rfl⟩
abbrev main_v77 : Ref sig .tc := ⟨.hbm, 124, rfl⟩
abbrev main_c_18 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_19 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89_0 : Ref sig .tc := ⟨.hbm, 138, rfl⟩
abbrev main_v89_1 : Ref sig .tc := ⟨.hbm, 139, rfl⟩
abbrev main_cst_20 : Ref sig .tc := ⟨.hbm, 140, rfl⟩
abbrev main_v90 : Ref sig .tc := ⟨.hbm, 141, rfl⟩
abbrev main_v91 : Ref sig .tc := ⟨.hbm, 142, rfl⟩
abbrev main_cst_21 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_22 : Ref sig .tc := ⟨.hbm, 150, rfl⟩
abbrev main_v98 : Ref sig .tc := ⟨.hbm, 151, rfl⟩
abbrev main_v99 : Ref sig .tc := ⟨.hbm, 152, rfl⟩
abbrev main_c_23 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_24 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111_0 : Ref sig .tc := ⟨.hbm, 166, rfl⟩
abbrev main_v111_1 : Ref sig .tc := ⟨.hbm, 167, rfl⟩
abbrev main_cst_25 : Ref sig .tc := ⟨.hbm, 168, rfl⟩
abbrev main_v112 : Ref sig .tc := ⟨.hbm, 169, rfl⟩
abbrev main_v113 : Ref sig .tc := ⟨.hbm, 170, rfl⟩
abbrev main_cst_26 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_27 : Ref sig .tc := ⟨.hbm, 185, rfl⟩
abbrev main_v127 : Ref sig .tc := ⟨.hbm, 186, rfl⟩
abbrev main_v128 : Ref sig .tc := ⟨.hbm, 187, rfl⟩
abbrev main_cst_28 : Ref sig .tc := ⟨.hbm, 188, rfl⟩
abbrev main_call1_v0 : Ref sig .tc := ⟨.hbm, 189, rfl⟩
abbrev main_call1_v1 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg3_0 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg4_0 : Ref sig .tc := ⟨.vmem, 72, rfl⟩
abbrev cc11_stg5_0 : Ref sig .tc := ⟨.vmem, 73, rfl⟩
abbrev cc11_stg6_0 : Ref sig .tc := ⟨.vmem, 74, rfl⟩
abbrev cc11_stg6_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc13_stg0_0 : Ref sig .tc := ⟨.vmem, 81, rfl⟩
abbrev cc13_stg1_0 : Ref sig .tc := ⟨.vmem, 82, rfl⟩
abbrev cc13_stg2_0 : Ref sig .tc := ⟨.vmem, 83, rfl⟩
abbrev cc13_stg3_0 : Ref sig .tc := ⟨.vmem, 84, rfl⟩
abbrev cc13_stg4_0 : Ref sig .tc := ⟨.vmem, 85, rfl⟩
abbrev cc13_stg5_0 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem3_0 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem3_0 : DmaSem sig := 71
abbrev cc11_sem4_0 : DmaSem sig := 72
abbrev cc11_sem5_0 : DmaSem sig := 73
abbrev cc11_sem6_0 : DmaSem sig := 74
abbrev cc11_sem6_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc13_sem0_0 : DmaSem sig := 81
abbrev cc13_sem1_0 : DmaSem sig := 82
abbrev cc13_sem2_0 : DmaSem sig := 83
abbrev cc13_sem3_0 : DmaSem sig := 84
abbrev cc13_sem4_0 : DmaSem sig := 85
abbrev cc13_sem5_0 : DmaSem sig := 86

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x64 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S64x64 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S10x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S10 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S64x10 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S1x64_S1x64 : S1x64.ShapeCasts S1x64
  reduces_S5000x64_S64 : S5000x64.Reduces [0] S64
  bcast_S_S1x64 : S_.BroadcastsInDim S1x64 (![] : Fin 0 → Fin S1x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  shapeCasts_S64x64_S64x64 : S64x64.ShapeCasts S64x64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S10x128_S10x128_0_0 : ∀ a, (![0, 0] : Fin 2 → Nat) a + S10x128.size a ≤ S10x128.size a
  h_S10x128 : 0 < S10x128.numel
  transposes_S10x128_p1_0_S128x10 : S10x128.Transposes [1, 0] S128x10
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x1_S1x64_S10000x64_1_0_0_1_n_n_wf : DotDims.WF S10000x1 S1x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S5000x64_S5000x64_S64x64_0_0_1_1_n_n_wf : DotDims.WF S5000x64 S5000x64 S64x64 [0] [0] [1] [1] [] []
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S50000x1.size a
  hwx0_0 : ∀ i : grid0.Coords, EltTy.bits .f32 = 32 ∨ (Rect.block (s := S50000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64.size a ≤ S64.size a
  hwx7_1 : ∀ i : grid7.Coords, EltTy.bits .f32 = 32 ∨ (Rect.block (s := S64) S64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64.size a ≤ S64.size a
  hwx8_1 : ∀ i : grid8.Coords, EltTy.bits .f32 = 32 ∨ (Rect.block (s := S64) S64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64.size a ≤ S64.size a
  hwx8_5 : ∀ i : grid8.Coords, EltTy.bits .f32 = 32 ∨ (Rect.block (s := S64) S64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S50000x64.size a
  hwx8_6 : ∀ i : grid8.Coords, EltTy.bits .f32 = 32 ∨ (Rect.block (s := S50000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S50000x64.size a
  hwx9_2 : ∀ i : grid9.Coords, EltTy.bits .f32 = 32 ∨ (Rect.block (s := S50000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64.size a ≤ S64.size a
  hwx10_1 : ∀ i : grid10.Coords, EltTy.bits .f32 = 32 ∨ (Rect.block (s := S64) S64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64.size a ≤ S64.size a
  hwx11_1 : ∀ i : grid11.Coords, EltTy.bits .f32 = 32 ∨ (Rect.block (s := S64) S64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64.size a ≤ S64.size a
  hwx11_4 : ∀ i : grid11.Coords, EltTy.bits .f32 = 32 ∨ (Rect.block (s := S64) S64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64.size a ≤ S64.size a
  hwx11_5 : ∀ i : grid11.Coords, EltTy.bits .f32 = 32 ∨ (Rect.block (s := S64) S64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x64.size a ≤ S50000x64.size a
  hwx11_6 : ∀ i : grid11.Coords, EltTy.bits .f32 = 32 ∨ (Rect.block (s := S50000x64) S5000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .bf16 = 32 ∨ (Rect.block (s := S50000x64) S5000x64.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x64.size a ≤ S64x64.size a
  hwx12_2 : ∀ i : grid12.Coords, EltTy.bits .f32 = 32 ∨ (Rect.block (s := S64x64) S64x64.size (cc12_transform_2 i) (hinb12_2 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S64x64.size a ≤ S64x64.size a
  hwx13_0 : ∀ i : grid13.Coords, EltTy.bits .f32 = 32 ∨ (Rect.block (s := S64x64) S64x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128.size a ≤ S128.size a
  hwx13_2 : ∀ i : grid13.Coords, EltTy.bits .f32 = 32 ∨ (Rect.block (s := S128) S128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S10x128.size a ≤ S10x128.size a
  hwx13_3 : ∀ i : grid13.Coords, EltTy.bits .f32 = 32 ∨ (Rect.block (s := S10x128) S10x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S10.size a ≤ S10.size a
  hwx13_4 : ∀ i : grid13.Coords, EltTy.bits .f32 = 32 ∨ (Rect.block (s := S10) S10.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S64x10.size a ≤ S64x10.size a
  hwx13_5 : ∀ i : grid13.Coords, EltTy.bits .f32 = 32 ∨ (Rect.block (s := S64x10) S64x10.size (cc13_transform_5 i) (hinb13_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg9) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v74) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v74) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v88) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v95) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg13) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg14) S64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v96) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v96) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v97) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v110) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg16) S64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v111_0) S1x64.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v111_1) S1x64.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v110) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v113) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v117) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg17) S64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg18) S64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v118) S5000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v125) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v118) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v128) S64x64.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v132) S64x64.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg19) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_arg20) S128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg21) S10x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_arg22) S10.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v133) S64x10.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S64x1 : Shape := ⟨2, ![64, 1]⟩
abbrev S64x128 : Shape := ⟨2, ![64, 128]⟩
abbrev S1x128 : Shape := ⟨2, ![1, 128]⟩
abbrev S128x10 : Shape := ⟨2, ![128, 10]⟩
abbrev S64x10 : Shape := ⟨2, ![64, 10]⟩
abbrev S1x10 : Shape := ⟨2, ![1, 10]⟩

abbrev nBuf : Space → Nat
  | .hbm => 363
  | .vmem => 0
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S1x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S128x64, .f32⟩
  | 20 => ⟨S128, .f32⟩
  | 21 => ⟨S10x128, .f32⟩
  | 22 => ⟨S10, .f32⟩
  | 23 => ⟨S50000, .i32⟩
  | 24 => ⟨S1x800000, .i32⟩
  | 25 => ⟨S800000, .i32⟩
  | 26 => ⟨S850000, .i32⟩
  | 27 => ⟨S1x800000, .i32⟩
  | 28 => ⟨S800000, .i32⟩
  | 29 => ⟨S850000, .i32⟩
  | 30 => ⟨S_, .f32⟩
  | 31 => ⟨S850000, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S50000x64, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x1, .f32⟩
  | 76 => ⟨S850000x64, .f32⟩
  | 77 => ⟨S850000x64, .f32⟩
  | 78 => ⟨S_, .f32⟩
  | 79 => ⟨S50000x64, .f32⟩
  | 80 => ⟨S850000x1, .i32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S50000x64, .f32⟩
  | 98 => ⟨S50000x64, .f32⟩
  | 99 => ⟨S50000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S64, .f32⟩
  | 121 => ⟨S64, .f32⟩
  | 122 => ⟨S64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x1, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x64, .f32⟩
  | 14 => ⟨S850000x1, .f32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S64, .f32⟩
  | 26 => ⟨S_, .f32⟩
  | 27 => ⟨S64, .f32⟩
  | 28 => ⟨S64, .f32⟩
  | 29 => ⟨S_, .i32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S50000x64, .f32⟩
  | 37 => ⟨S50000x64, .f32⟩
  | 38 => ⟨S50000x64, .f32⟩
  | 39 => ⟨S_, .f32⟩
  | 40 => ⟨S_, .f32⟩
  | 41 => ⟨S_, .f32⟩
  | 42 => ⟨S_, .f32⟩
  | 43 => ⟨S64, .f32⟩
  | 44 => ⟨S64, .f32⟩
  | 45 => ⟨S64, .f32⟩
  | 46 => ⟨S_, .f32⟩
  | 47 => ⟨S_, .i1⟩
  | 48 => ⟨S_, .f32⟩
  | 49 => ⟨S_, .f32⟩
  | 50 => ⟨S64, .f32⟩
  | 51 => ⟨S64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x64, .f32⟩
  | 81 => ⟨S850000x1, .f32⟩
  | 82 => ⟨S850000x64, .f32⟩
  | 83 => ⟨S850000x64, .f32⟩
  | 84 => ⟨S_, .f32⟩
  | 85 => ⟨S50000x64, .f32⟩
  | 86 => ⟨S850000x1, .i32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S50000x64, .f32⟩
  | 104 => ⟨S50000x64, .f32⟩
  | 105 => ⟨S50000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S64, .f32⟩
  | 127 => ⟨S64, .f32⟩
  | _ => ⟨S50000x1, .f32⟩

abbrev hbmTy0_2 (i : Nat) : BufTy := match i % 128 with
  | 0 => ⟨S64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S50000x64, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x64, .f32⟩
  | 20 => ⟨S850000x1, .f32⟩
  | 21 => ⟨S850000x64, .f32⟩
  | 22 => ⟨S850000x64, .f32⟩
  | 23 => ⟨S_, .f32⟩
  | 24 => ⟨S50000x64, .f32⟩
  | 25 => ⟨S850000x1, .i32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S50000, .f32⟩
  | 79 => ⟨S_, .f32⟩
  | 80 => ⟨S64, .f32⟩
  | 81 => ⟨S50000x1, .i32⟩
  | 82 => ⟨S64, .f32⟩
  | 83 => ⟨S_, .f32⟩
  | 84 => ⟨S64x64, .f32⟩
  | 85 => ⟨S50000x1, .i32⟩
  | 86 => ⟨S64x64, .f32⟩
  | 87 => ⟨S_, .f32⟩
  | 88 => ⟨S_, .f32⟩
  | 89 => ⟨S64, .f32⟩
  | 90 => ⟨S64, .f32⟩
  | 91 => ⟨S64x1, .f32⟩
  | 92 => ⟨S64x64, .f32⟩
  | 93 => ⟨S64x64, .f32⟩
  | 94 => ⟨S64x128, .f32⟩
  | 95 => ⟨S64x128, .f32⟩
  | 96 => ⟨S1x128, .f32⟩
  | 97 => ⟨S64x128, .f32⟩
  | 98 => ⟨S64x128, .f32⟩
  | 99 => ⟨S_, .f32⟩
  | 100 => ⟨S64x128, .f32⟩
  | 101 => ⟨S64x128, .f32⟩
  | 102 => ⟨S128x10, .f32⟩
  | 103 => ⟨S64x10, .f32⟩
  | 104 => ⟨S1x10, .f32⟩
  | 105 => ⟨S64x10, .f32⟩
  | 106 => ⟨S64x10, .f32⟩
  | _ => ⟨S50000x1, .f32⟩

abbrev hbmTy (i : Nat) : BufTy := match i / 128 with
  | 0 => hbmTy0_0 i
  | 1 => hbmTy0_1 i
  | 2 => hbmTy0_2 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_7 : Ref sig .tc := ⟨.hbm, 66, rfl⟩
abbrev main_v32 : Ref sig .tc := ⟨.hbm, 67, rfl⟩
abbrev main_v33 : Ref sig .tc := ⟨.hbm, 68, rfl⟩
abbrev main_c_8 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_c_12 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_cst_3 : Ref sig .tc := ⟨.hbm, 107, rfl⟩
abbrev main_call1_v12 : Ref sig .tc := ⟨.hbm, 108, rfl⟩
abbrev main_call1_cst_4 : Ref sig .tc := ⟨.hbm, 109, rfl⟩
abbrev main_call1_call0_v0 : Ref sig .tc := ⟨.hbm, 110, rfl⟩
abbrev main_call1_call0_v1 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_cst_13 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_call2_cst : Ref sig .tc := ⟨.hbm, 129, rfl⟩
abbrev main_call2_v0 : Ref sig .tc := ⟨.hbm, 130, rfl⟩
abbrev main_v67 : Ref sig .tc := ⟨.hbm, 131, rfl⟩
abbrev main_v68 : Ref sig .tc := ⟨.hbm, 132, rfl⟩
abbrev main_c_14 : Ref sig .tc := ⟨.hbm, 133, rfl⟩
abbrev main_v69 : Ref sig .tc := ⟨.hbm, 134, rfl⟩
abbrev main_v70 : Ref sig .tc := ⟨.hbm, 135, rfl⟩
abbrev main_c_15 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_16 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_cst_17 : Ref sig .tc := ⟨.hbm, 152, rfl⟩
abbrev main_v85 : Ref sig .tc := ⟨.hbm, 153, rfl⟩
abbrev main_cst_18 : Ref sig .tc := ⟨.hbm, 154, rfl⟩
abbrev main_v86 : Ref sig .tc := ⟨.hbm, 155, rfl⟩
abbrev main_v87 : Ref sig .tc := ⟨.hbm, 156, rfl⟩
abbrev main_c_19 : Ref sig .tc := ⟨.hbm, 157, rfl⟩
abbrev main_call3_cst : Ref sig .tc := ⟨.hbm, 158, rfl⟩
abbrev main_call3_v0 : Ref sig .tc := ⟨.hbm, 159, rfl⟩
abbrev main_call3_v1 : Ref sig .tc := ⟨.hbm, 160, rfl⟩
abbrev main_call3_cst_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_v6 : Ref sig .tc := ⟨.hbm, 166, rfl⟩
abbrev main_call3_v7 : Ref sig .tc := ⟨.hbm, 167, rfl⟩
abbrev main_call3_cst_1 : Ref sig .tc := ⟨.hbm, 168, rfl⟩
abbrev main_call3_v8 : Ref sig .tc := ⟨.hbm, 169, rfl⟩
abbrev main_call3_cst_2 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_cst_3 : Ref sig .tc := ⟨.hbm, 174, rfl⟩
abbrev main_call3_v12 : Ref sig .tc := ⟨.hbm, 175, rfl⟩
abbrev main_call3_cst_4 : Ref sig .tc := ⟨.hbm, 176, rfl⟩
abbrev main_call3_call0_v0 : Ref sig .tc := ⟨.hbm, 177, rfl⟩
abbrev main_call3_call0_v1 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_cst_20 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_call4_cst : Ref sig .tc := ⟨.hbm, 196, rfl⟩
abbrev main_call4_v0 : Ref sig .tc := ⟨.hbm, 197, rfl⟩
abbrev main_v104 : Ref sig .tc := ⟨.hbm, 198, rfl⟩
abbrev main_v105 : Ref sig .tc := ⟨.hbm, 199, rfl⟩
abbrev main_c_21 : Ref sig .tc := ⟨.hbm, 200, rfl⟩
abbrev main_v106 : Ref sig .tc := ⟨.hbm, 201, rfl⟩
abbrev main_v107 : Ref sig .tc := ⟨.hbm, 202, rfl⟩
abbrev main_c_22 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_cst_23 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_cst_24 : Ref sig .tc := ⟨.hbm, 219, rfl⟩
abbrev main_v122 : Ref sig .tc := ⟨.hbm, 220, rfl⟩
abbrev main_cst_25 : Ref sig .tc := ⟨.hbm, 221, rfl⟩
abbrev main_v123 : Ref sig .tc := ⟨.hbm, 222, rfl⟩
abbrev main_v124 : Ref sig .tc := ⟨.hbm, 223, rfl⟩
abbrev main_c_26 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_cst_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_v6 : Ref sig .tc := ⟨.hbm, 233, rfl⟩
abbrev main_call5_v7 : Ref sig .tc := ⟨.hbm, 234, rfl⟩
abbrev main_call5_cst_1 : Ref sig .tc := ⟨.hbm, 235, rfl⟩
abbrev main_call5_v8 : Ref sig .tc := ⟨.hbm, 236, rfl⟩
abbrev main_call5_cst_2 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_cst_3 : Ref sig .tc := ⟨.hbm, 241, rfl⟩
abbrev main_call5_v12 : Ref sig .tc := ⟨.hbm, 242, rfl⟩
abbrev main_call5_cst_4 : Ref sig .tc := ⟨.hbm, 243, rfl⟩
abbrev main_call5_call0_v0 : Ref sig .tc := ⟨.hbm, 244, rfl⟩
abbrev main_call5_call0_v1 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_cst_27 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_call6_cst : Ref sig .tc := ⟨.hbm, 263, rfl⟩
abbrev main_call6_v0 : Ref sig .tc := ⟨.hbm, 264, rfl⟩
abbrev main_v141 : Ref sig .tc := ⟨.hbm, 265, rfl⟩
abbrev main_v142 : Ref sig .tc := ⟨.hbm, 266, rfl⟩
abbrev main_c_28 : Ref sig .tc := ⟨.hbm, 267, rfl⟩
abbrev main_v143 : Ref sig .tc := ⟨.hbm, 268, rfl⟩
abbrev main_v144 : Ref sig .tc := ⟨.hbm, 269, rfl⟩
abbrev main_c_29 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_cst_30 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_cst_31 : Ref sig .tc := ⟨.hbm, 286, rfl⟩
abbrev main_v159 : Ref sig .tc := ⟨.hbm, 287, rfl⟩
abbrev main_cst_32 : Ref sig .tc := ⟨.hbm, 288, rfl⟩
abbrev main_v160 : Ref sig .tc := ⟨.hbm, 289, rfl⟩
abbrev main_v161 : Ref sig .tc := ⟨.hbm, 290, rfl⟩
abbrev main_c_33 : Ref sig .tc := ⟨.hbm, 291, rfl⟩
abbrev main_call7_cst : Ref sig .tc := ⟨.hbm, 292, rfl⟩
abbrev main_call7_v0 : Ref sig .tc := ⟨.hbm, 293, rfl⟩
abbrev main_call7_v1 : Ref sig .tc := ⟨.hbm, 294, rfl⟩
abbrev main_call7_cst_0 : Ref sig .tc := ⟨.hbm, 295, rfl⟩
abbrev main_call7_v2 : Ref sig .tc := ⟨.hbm, 296, rfl⟩
abbrev main_call7_v3 : Ref sig .tc := ⟨.hbm, 297, rfl⟩
abbrev main_call7_v4 : Ref sig .tc := ⟨.hbm, 298, rfl⟩
abbrev main_call7_v5 : Ref sig .tc := ⟨.hbm, 299, rfl⟩
abbrev main_call7_v6 : Ref sig .tc := ⟨.hbm, 300, rfl⟩
abbrev main_call7_v7 : Ref sig .tc := ⟨.hbm, 301, rfl⟩
abbrev main_call7_cst_1 : Ref sig .tc := ⟨.hbm, 302, rfl⟩
abbrev main_call7_v8 : Ref sig .tc := ⟨.hbm, 303, rfl⟩
abbrev main_call7_cst_2 : Ref sig .tc := ⟨.hbm, 304, rfl⟩
abbrev main_call7_v9 : Ref sig .tc := ⟨.hbm, 305, rfl⟩
abbrev main_call7_v10 : Ref sig .tc := ⟨.hbm, 306, rfl⟩
abbrev main_call7_v11 : Ref sig .tc := ⟨.hbm, 307, rfl⟩
abbrev main_call7_cst_3 : Ref sig .tc := ⟨.hbm, 308, rfl⟩
abbrev main_call7_v12 : Ref sig .tc := ⟨.hbm, 309, rfl⟩
abbrev main_call7_cst_4 : Ref sig .tc := ⟨.hbm, 310, rfl⟩
abbrev main_call7_call0_v0 : Ref sig .tc := ⟨.hbm, 311, rfl⟩
abbrev main_call7_call0_v1 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_v167 : Ref sig .tc := ⟨.hbm, 318, rfl⟩
abbrev main_v168 : Ref sig .tc := ⟨.hbm, 319, rfl⟩
abbrev main_cst_34 : Ref sig .tc := ⟨.hbm, 320, rfl⟩
abbrev main_v169 : Ref sig .tc := ⟨.hbm, 321, rfl⟩
abbrev main_v170 : Ref sig .tc := ⟨.hbm, 322, rfl⟩
abbrev main_v171 : Ref sig .tc := ⟨.hbm, 323, rfl⟩
abbrev main_v172 : Ref sig .tc := ⟨.hbm, 324, rfl⟩
abbrev main_v173 : Ref sig .tc := ⟨.hbm, 325, rfl⟩
abbrev main_v174 : Ref sig .tc := ⟨.hbm, 326, rfl⟩
abbrev main_v175 : Ref sig .tc := ⟨.hbm, 327, rfl⟩
abbrev main_v176 : Ref sig .tc := ⟨.hbm, 328, rfl⟩
abbrev main_v177 : Ref sig .tc := ⟨.hbm, 329, rfl⟩
abbrev main_call8_cst : Ref sig .tc := ⟨.hbm, 330, rfl⟩
abbrev main_call8_v0 : Ref sig .tc := ⟨.hbm, 331, rfl⟩
abbrev main_v178 : Ref sig .tc := ⟨.hbm, 332, rfl⟩
abbrev main_cst_35 : Ref sig .tc := ⟨.hbm, 333, rfl⟩
abbrev main_v179 : Ref sig .tc := ⟨.hbm, 334, rfl⟩
abbrev main_cst_36 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_cst_37 : Ref sig .tc := ⟨.hbm, 339, rfl⟩
abbrev main_v183 : Ref sig .tc := ⟨.hbm, 340, rfl⟩
abbrev main_v184 : Ref sig .tc := ⟨.hbm, 341, rfl⟩
abbrev main_v185 : Ref sig .tc := ⟨.hbm, 342, rfl⟩
abbrev main_cst_38 : Ref sig .tc := ⟨.hbm, 343, rfl⟩
abbrev main_call9_v0 : Ref sig .tc := ⟨.hbm, 344, rfl⟩
abbrev main_call9_v1 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_v190 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_v194 : Ref sig .tc := ⟨.hbm, 354, rfl⟩
abbrev main_call10_cst : Ref sig .tc := ⟨.hbm, 355, rfl⟩
abbrev main_call10_v0 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_v200 : Ref sig .tc := ⟨.hbm, 362, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S128x64_S64x128_1_0 : S128x64.Transposes [1, 0] S64x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1_S1x64_S50000x64_1_0_0_1_n_n_wf : DotDims.WF S50000x1 S1x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Stages.lean ====
import proofs.«418940_j1529008358070_1_alg».proof.ReferenceIdeal
import Idealize.ShloMosaic.PureOps.Ideal

noncomputable section

namespace Cert.Stages

open Idealize.ShloMosaic Idealize.ShloMosaic.TcCoe Cert.ReferenceIdeal Cert.ReferenceIdeal.Facts₀ Cert.ReferenceIdeal.Facts

variable {F : FTy → Type} [FloatOps F] [hR : Cert.ReferenceIdeal.Facts]

abbrev TF (F : FTy → Type) (S : Shape) : Type := (⟨S, .f32⟩ : BufTy).Contents (Elt F)
abbrev TI (F : FTy → Type) (S : Shape) : Type := (⟨S, .i32⟩ : BufTy).Contents (Elt F)

def endpoints0 (ei : TI F S2x800000) : TI F S850000 :=
  concatenate S850000 0 [⟨S800000, fun i => shapeCast S800000 (extractStridedSlice S1x800000 ![0, 0] ei slices_S2x800000_S1x800000_0_0) shapeCasts_S1x800000_S800000 i⟩, ⟨S50000, iotaInDim S50000 32 0⟩] concatenates_S800000_S50000_S850000_d0
def endpoints1 (ei : TI F S2x800000) : TI F S850000 :=
  concatenate S850000 0 [⟨S800000, fun i => shapeCast S800000 (extractStridedSlice S1x800000 ![1, 0] ei slices_S2x800000_S1x800000_1_0) shapeCasts_S1x800000_S800000 i⟩, ⟨S50000, iotaInDim S50000 32 0⟩] concatenates_S800000_S50000_S850000_d0

def wrap (idx : TI F S850000) : TI F S850000 :=
  select (cmpi .slt idx (broadcastInDim S850000 ![] bcast_S_S850000 (constantI S_ 32 0#32)))
    (addi idx (broadcastInDim S850000 ![] bcast_S_S850000 (constantI S_ 32 50000#32))) idx

def deg (dst : TI F S850000) : TF F S50000 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

def dinv (d : TF F S50000) : TF F S50000 :=
  select (cmpf .ogt d (broadcastInDim S50000 ![] bcast_S_S50000 (constant S_ .f32 0x00000000#32)))
    (Host.powf d (broadcastInDim S50000 ![] bcast_S_S50000 (constant S_ .f32 0xBF000000#32)))
    (broadcastInDim S50000 ![] bcast_S_S50000 (id (constant S_ .f32 0x00000000#32)))

def edgeWeight (src dst : TI F S850000) : TF F S850000 :=
  mulf (Host.gather gather_S50000_S850000x1_S850000_n_0_n_n_0_1_1 (dinv (deg dst)) (broadcastInDim S850000x1 ![0] bcast_S850000_S850000x1_0 (wrap src)))
    (Host.gather gather_S50000_S850000x1_S850000_n_0_n_n_0_1_1 (dinv (deg dst)) (broadcastInDim S850000x1 ![0] bcast_S850000_S850000x1_0 (wrap dst)))

def aggregate (src dst : TI F S850000) (nrm : TF F S850000) (h : TF F S50000x64) : TF F S50000x64 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 h (broadcastInDim S850000x1 ![0] bcast_S850000_S850000x1_0 (wrap src)))
      (broadcastInDim S850000x64 ![0, 1] bcast_S850000x1_S850000x64_0_1 (broadcastInDim S850000x1 ![0] bcast_S850000_S850000x1_0 nrm)))

def rows (v : TF F S64) : TF F S50000x64 :=
  broadcastInDim S50000x64 ![0, 1] bcast_S1x64_S50000x64_0_1 (broadcastInDim S1x64 ![1] bcast_S64_S1x64_1 v)

def biased (agg : TF F S50000x64) (b : TF F S64) : TF F S50000x64 := addf agg (rows b)

def mean (x : TF F S50000x64) : TF F S64 :=
  Host.divf (Host.reduceAdd x (constant S_ .f32 0x00000000#32) reducesTo_S50000x64_S64_d0 h_S_)
    (broadcastInDim S64 ![] bcast_S_S64 (constant S_ .f32 0x47435000#32))

def varDen : (⟨S_, .f32⟩ : BufTy).Contents (Elt F) :=
  subf (constant S_ .f32 0x47435000#32) (sitofp .f32 (constantI S_ 32 0#32))

def variance (x : TF F S50000x64) : TF F S64 :=
  select (broadcastInDim S64 ![] bcast_S_S64 (cmpf .ogt (varDen (F := F)) (constant S_ .f32 0x00000000#32)))
    (Host.divf
      (Host.reduceAdd
        (mulf
          (subf x (broadcastInDim S50000x64 ![0, 1] bcast_S1x64_S50000x64_0_1
            (Host.divf (broadcastInDim S1x64 ![1] bcast_S64_S1x64_1 (Host.reduceAdd x (constant S_ .f32 0x00000000#32) reducesTo_S50000x64_S64_d0 h_S_))
              (broadcastInDim S1x64 ![] bcast_S_S1x64 (constant S_ .f32 0x47435000#32)))))
          (subf x (broadcastInDim S50000x64 ![0, 1] bcast_S1x64_S50000x64_0_1
            (Host.divf (broadcastInDim S1x64 ![1] bcast_S64_S1x64_1 (Host.reduceAdd x (constant S_ .f32 0x00000000#32) reducesTo_S50000x64_S64_d0 h_S_))
              (broadcastInDim S1x64 ![] bcast_S_S1x64 (constant S_ .f32 0x47435000#32))))))
        (constant S_ .f32 0x00000000#32) reducesTo_S50000x64_S64_d0 h_S_)
      (broadcastInDim S64 ![] bcast_S_S64 (varDen (F := F))))
    (broadcastInDim S64 ![] bcast_S_S64 (id (constant S_ .f32 0x7FC00000#32)))

def normRelu (x : TF F S50000x64) (g bt : TF F S64) : TF F S50000x64 :=
  maximumf
    (addf
      (mulf (mulf (rows g) (subf x (rows (mean x))))
        (rows (Host.rsqrt (addf (variance x) (broadcastInDim S64 ![] bcast_S_S64 (constant S_ .f32 0x3727C5AC#32))))))
      (rows bt))
    (broadcastInDim S50000x64 ![] bcast_S_S50000x64 (constant S_ .f32 0x00000000#32))

def project1 (x : TF F S50000x1) (W : TF F S1x64) : TF F S50000x64 :=
  Host.dotGeneral dot_S50000x1_S1x64_S50000x64_1_0_0_1_n_n none x W
def project (x : TF F S50000x64) (W : TF F S64x64) : TF F S50000x64 :=
  Host.dotGeneral dot_S50000x64_S64x64_S50000x64_1_0_0_1_n_n none x W

def layer (src dst : TI F S850000) (nrm : TF F S850000) (h : TF F S50000x64) (b g bt : TF F S64) : TF F S50000x64 :=
  normRelu (biased (aggregate src dst nrm h) b) g bt

def count (batch : TI F S50000) : TF F S64 :=
  Host.scatterAdd scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

def graphSum (batch : TI F S50000) (x : TF F S50000x64) : TF F S64x64 :=
  Host.scatterAdd scatter_S64x64_S50000x1_S50000x64_1_0_0_1
    (broadcastInDim S64x64 ![] bcast_S_S64x64 (constant S_ .f32 0x00000000#32))
    (broadcastInDim S50000x1 ![0] bcast_S50000_S50000x1_0 batch) x

def atLeastOne (cnt : TF F S64) : TF F S64 :=
  maximumf (broadcastInDim S64 ![] bcast_S_S64 (id (constant S_ .f32 0x3F800000#32))) cnt

def graphMeanOf (s : TF F S64x64) (c : TF F S64) : TF F S64x64 :=
  Host.divf s (broadcastInDim S64x64 ![0, 1] bcast_S64x1_S64x64_0_1 (broadcastInDim S64x1 ![0] bcast_S64_S64x1_0 (atLeastOne c)))

def head (p : TF F S64x64) (fw1 : TF F S128x64) (fb1 : TF F S128) (fw2 : TF F S10x128) (fb2 : TF F S10) : TF F S64x10 :=
  addf
    (Host.dotGeneral dot_S64x128_S128x10_S64x10_1_0_0_1_n_n none
      (maximumf
        (addf (Host.dotGeneral dot_S64x64_S64x128_S64x128_1_0_0_1_n_n none p (transpose S64x128 [1, 0] fw1 transposes_S128x64_S64x128_1_0))
          (broadcastInDim S64x128 ![0, 1] bcast_S1x128_S64x128_0_1 (broadcastInDim S1x128 ![1] bcast_S128_S1x128_1 fb1)))
        (broadcastInDim S64x128 ![] bcast_S_S64x128 (constant S_ .f32 0x00000000#32)))
      (transpose S128x10 [1, 0] fw2 transposes_S10x128_S128x10_1_0))
    (broadcastInDim S64x10 ![0, 1] bcast_S1x10_S64x10_0_1 (broadcastInDim S1x10 ![1] bcast_S10_S1x10_1 fb2))

def net (x : TF F S50000x1) (ei : TI F S2x800000) (batch : TI F S50000)
    (W1 : TF F S1x64) (b1 g1 bt1 : TF F S64) (W2 : TF F S64x64) (b2 g2 bt2 : TF F S64)
    (W3 : TF F S64x64) (b3 g3 bt3 : TF F S64) (W4 : TF F S64x64) (b4 g4 bt4 : TF F S64)
    (fw1 : TF F S128x64) (fb1 : TF F S128) (fw2 : TF F S10x128) (fb2 : TF F S10) : TF F S64x10 :=
  let src := endpoints0 ei
  let dst := endpoints1 ei
  let nrm := edgeWeight src dst
  let x1 := layer src dst nrm (project1 x W1) b1 g1 bt1
  let x2 := layer src dst nrm (project x1 W2) b2 g2 bt2
  let x3 := layer src dst nrm (project x2 W3) b3 g3 bt3
  let x4 := layer src dst nrm (project x3 W4) b4 g4 bt4
  head (graphMeanOf (graphSum batch x4) (count batch)) fw1 fb1 fw2 fb2

end Cert.Stages

end
-- ==== Proof.KMath.lean ====
import proofs.«418940_j1529008358070_1_alg».proof.Proof.Stages
import Idealize.ShloMosaic.Lib.ValueIdx

noncomputable section

namespace Cert.KMath

open Idealize.ShloMosaic Idealize.ShloMosaic.ValueIdx Cert.ReferenceIdeal
open scoped BigOperators

variable [hR : Cert.ReferenceIdeal.Facts]

abbrev A (S : Shape) : Type := S.Idx → EReal
abbrev I (S : Shape) : Type := S.Idx → BitVec 32

def IsReal (x : EReal) : Prop := ∃ r : ℝ, x = (r : EReal)
def AllReal {S : Shape} (v : A S) : Prop := ∀ i, IsReal (v i)

def colSum (x : A S50000x64) : A S1x64 := fun j => ∑ n : Fin 50000, x (ix2 n (j 1))

def sum1 (agg : A S50000x64) (b : A S64) : A S1x64 := colSum (Cert.Stages.biased (F := Ideal) agg b)
def sum2 (agg : A S50000x64) (b : A S64) : A S1x64 :=
  colSum (fun i => Cert.Stages.biased (F := Ideal) agg b i * Cert.Stages.biased (F := Ideal) agg b i)

def nNodes : EReal := Ideal.ofBits .f32 0x47435000#32
def meanK (s : A S1x64) : A S1x64 := fun j => Ideal.div (s j) nNodes
def varK (s1 s2 : A S1x64) : A S1x64 := fun j => meanK s2 j - meanK s1 j * meanK s1 j

def epsBN : EReal := Ideal.ofBits .f32 0x3727C5AC#32

def normReluK (agg : A S50000x64) (b : A S64) (mu var : A S1x64) (g bt : A S64) : A S50000x64 :=
  fun i => max (g (ix1 (i 1)) * (Cert.Stages.biased (F := Ideal) agg b i - mu (ix2 0 (i 1)))
    * Ideal.rsqrt (var (ix2 0 (i 1)) + epsBN) + bt (ix1 (i 1))) 0

def oneHot (batch : I S50000) : A S50000x64 :=
  fun i => if batch (ix1 (i 0)) = BitVec.ofNat 32 (i 1).val then 1 else 0
def countK (batch : I S50000) : A S64 := fun g => ∑ n : Fin 50000, oneHot batch (ix2 n (g 0))
def poolK (oh x : A S50000x64) : A S64x64 := fun i => ∑ n : Fin 50000, oh (ix2 n (i 0)) * x (ix2 n (i 1))

def layerK (src dst : I S850000) (nrm : A S850000) (h : A S50000x64) (b g bt : A S64) : A S50000x64 :=
  normReluK (Cert.Stages.aggregate (F := Ideal) src dst nrm h) b
    (meanK (sum1 (Cert.Stages.aggregate (F := Ideal) src dst nrm h) b))
    (varK (sum1 (Cert.Stages.aggregate (F := Ideal) src dst nrm h) b) (sum2 (Cert.Stages.aggregate (F := Ideal) src dst nrm h) b))
    g bt

def netK (x : A S50000x1) (ei : I S2x800000) (batch : I S50000)
    (W1 : A S1x64) (b1 g1 bt1 : A S64) (W2 : A S64x64) (b2 g2 bt2 : A S64)
    (W3 : A S64x64) (b3 g3 bt3 : A S64) (W4 : A S64x64) (b4 g4 bt4 : A S64)
    (fw1 : A S128x64) (fb1 : A S128) (fw2 : A S10x128) (fb2 : A S10) : A S64x10 :=
  let src := Cert.Stages.endpoints0 (F := Ideal) ei
  let dst := Cert.Stages.endpoints1 (F := Ideal) ei
  let nrm := Cert.Stages.edgeWeight (F := Ideal) src dst
  let x1 := layerK src dst nrm (Cert.Stages.project1 (F := Ideal) x W1) b1 g1 bt1
  let x2 := layerK src dst nrm (Cert.Stages.project (F := Ideal) x1 W2) b2 g2 bt2
  let x3 := layerK src dst nrm (Cert.Stages.project (F := Ideal) x2 W3) b3 g3 bt3
  let x4 := layerK src dst nrm (Cert.Stages.project (F := Ideal) x3 W4) b4 g4 bt4
  Cert.Stages.head (F := Ideal) (Cert.Stages.graphMeanOf (F := Ideal) (poolK (oneHot batch) x4) (countK batch)) fw1 fb1 fw2 fb2

end Cert.KMath

end
-- ==== Proof.RegMM.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.Lib.StackMember
import Idealize.ShloMosaic.Lib.Pipeline.Value

noncomputable section

namespace Cert.RegMM

open Idealize.ShloMosaic Idealize.ShloMosaic.TcCoe Idealize.ShloMosaic.ValueIdx Idealize.SL.Sem Cert.KernelIdeal Cert.KernelIdeal.Gen
open scoped BigOperators

abbrev Entry : Type := (c : Dev nD) → (b : Ref sig .tc) → Buf (Elt Ideal) ((c : Thread nD τ).loc b)

theorem hz : (![0, 0] : Fin 2 → Nat) = fun _ => 0 := funext fun a => by fin_cases a <;> rfl

-- Both products are the sum over the contracted index of the same terms.
theorem dot_congr {m n M N K : ℕ} {φ₁ φ₂ φ₃ φ₄ : FTy} {a : FVec Ideal ⟨2, ![m, K]⟩ φ₁} {b : FVec Ideal ⟨2, ![K, n]⟩ φ₂}
    {A : FVec Ideal ⟨2, ![M, K]⟩ φ₃} {B : FVec Ideal ⟨2, ![K, N]⟩ φ₄}
    (j : (⟨2, ![m, n]⟩ : Shape).Idx) (i : (⟨2, ![M, N]⟩ : Shape).Idx)
    (hx : ∀ k, a (ix2 (j 0) k) = A (ix2 (i 0) k)) (hw : ∀ k, b (ix2 k (j 1)) = B (ix2 k (i 1))) :
    Host.dotGeneral (DotDims.plain m K n) none a b j = Host.dotGeneral (DotDims.plain M K N) none A B i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  rw [StackMember.dotGeneral_plain_apply, StackMember.dotGeneral_plain_apply]
  exact Finset.sum_congr rfl fun k _ => congrArg₂ (· * ·) (hx k) (hw k)

-- The body leaves the block product; accumulated from zero it is the plain product.
theorem out0_eq (x0 : Vec Ideal S10000x1 .f32) (x1 : Vec Ideal S1x64 .f32) :
    out0_2 (F := Ideal) x0 x1 = Host.dotGeneral (F := Ideal) (DotDims.plain 10000 1 64) none (φ₁ := .bf16) (φ₂ := .bf16) x0 x1 := by
  unfold out0_2
  rw [View.canon_unit_zero hz, View.ld_unit_zero hz, View.ld_unit_zero hz]
  exact matmul_zero_eq_dotGeneral dot_S10000x1_S1x64_S10000x64_1_0_0_1_n_n none _ _

theorem out3_eq (x0 : Vec Ideal S10000x64 .f32) (x1 : Vec Ideal S64x64 .f32) :
    out3_2 (F := Ideal) x0 x1 = Host.dotGeneral (F := Ideal) (DotDims.plain 10000 64 64) none (φ₁ := .bf16) (φ₂ := .bf16) x0 x1 := by
  unfold out3_2
  rw [View.canon_unit_zero hz, View.ld_unit_zero hz, View.ld_unit_zero hz]
  exact (matmul_zero_eq_dotGeneral dot_S10000x64_S64x64_S10000x64_1_0_0_1_n_n none _ _).trans (by rw [shapeCast_self]; rfl)

-- Row r lies in the block of 10000 rows numbered r / 10000, whatever its column.
theorem mem_rowblk (i : S50000x64.Idx) (ix : Fin 2 → ℕ) (inb) (h0 : ix 0 = (i 0).val / 10000) (h1 : ix 1 = 0) :
    i ∈ (Rect.unit (s := S50000x64) (fun a => ix a * S10000x64.size a) S10000x64.size inb).set := by
  have := idx2_lt0 i
  have := idx2_lt1 i
  refine Rect.mem_set_unit.mpr fun a => ?_
  match a with
  | ⟨0, _⟩ => show ix 0 * 10000 ≤ (i 0).val ∧ (i 0).val < ix 0 * 10000 + 10000; omega
  | ⟨1, _⟩ => show ix 1 * 64 ≤ (i 1).val ∧ (i 1).val < ix 1 * 64 + 64; omega

def rowPt (i : S50000x64.Idx) : Fin grid0.N := ⟨(i 0).val / 10000, by have := idx2_lt0 i; rw [N_0]; omega⟩

theorem idx2 : ∀ t : Fin grid0.N, win0_2.index t (0 : Fin 2) = t.val := by decide +kernel

-- At block index zero an element sits at its own coordinate.
theorem off0 (s : ℕ) {n : ℕ} (k : Fin n) : 0 * s + 1 * k.val = k.val := by omega

theorem out0 (V : Entry) (c : Dev nD) :
    (dat0 (F := Ideal) V c).arrAt 2 cfg0.N = Cert.Stages.project1 (F := Ideal) (V c main_arg0) (V c main_arg3) :=
  (dat0 (F := Ideal) V c).arrAt_eq_of_cover 2 _ (fun t _ => by
      show (cfg0.win 2).cut (grid0.coords t) ((dat0 (F := Ideal) V c).after 2 t) = _
      rw [after0_2]
      exact funext fun j => (congrFun (out0_eq _ _) _).trans <| dot_congr j _ (fun k => congrArg (V c main_arg0) (Shape.idx_ext₂ rfl (off0 1 k)))
        (fun k => congrArg (V c main_arg3) (Shape.idx_ext₂ (off0 1 k) rfl)))
    fun i => ⟨rowPt i, flush0_2 _, (congrArg (i ∈ ·) (View.set_slice_whole main_v31 _)).mpr (mem_rowblk i _ _ (idx2 _) rfl)⟩

theorem out3 (V : Entry) (c : Dev nD) :
    (dat3 (F := Ideal) V c).arrAt 2 cfg3.N = Cert.Stages.project (F := Ideal) (V c main_v52) (V c main_arg7) :=
  (dat3 (F := Ideal) V c).arrAt_eq_of_cover 2 _ (fun t _ => by
      show (cfg3.win 2).cut (grid3.coords t) ((dat3 (F := Ideal) V c).after 2 t) = _
      rw [after3_2]
      exact funext fun j => (congrFun (out3_eq _ _) _).trans <| dot_congr j _ (fun k => congrArg (V c main_v52) (Shape.idx_ext₂ rfl (off0 64 k)))
        (fun k => congrArg (V c main_arg7) (Shape.idx_ext₂ (off0 64 k) rfl)))
    fun i => ⟨rowPt i, flush3_2 _, (congrArg (i ∈ ·) (View.set_slice_whole main_v53 _)).mpr (mem_rowblk i _ _ (idx2 _) rfl)⟩

theorem out6 (V : Entry) (c : Dev nD) :
    (dat6 (F := Ideal) V c).arrAt 2 cfg6.N = Cert.Stages.project (F := Ideal) (V c main_v74) (V c main_arg11) :=
  (dat6 (F := Ideal) V c).arrAt_eq_of_cover 2 _ (fun t _ => by
      show (cfg6.win 2).cut (grid6.coords t) ((dat6 (F := Ideal) V c).after 2 t) = _
      rw [after6_2]
      exact funext fun j => (congrFun (out3_eq _ _) _).trans <| dot_congr j _ (fun k => congrArg (V c main_v74) (Shape.idx_ext₂ rfl (off0 64 k)))
        (fun k => congrArg (V c main_arg11) (Shape.idx_ext₂ (off0 64 k) rfl)))
    fun i => ⟨rowPt i, flush6_2 _, (congrArg (i ∈ ·) (View.set_slice_whole main_v75 _)).mpr (mem_rowblk i _ _ (idx2 _) rfl)⟩

theorem out9 (V : Entry) (c : Dev nD) :
    (dat9 (F := Ideal) V c).arrAt 2 cfg9.N = Cert.Stages.project (F := Ideal) (V c main_v96) (V c main_arg15) :=
  (dat9 (F := Ideal) V c).arrAt_eq_of_cover 2 _ (fun t _ => by
      show (cfg9.win 2).cut (grid9.coords t) ((dat9 (F := Ideal) V c).after 2 t) = _
      rw [after9_2]
      exact funext fun j => (congrFun (out3_eq _ _) _).trans <| dot_congr j _ (fun k => congrArg (V c main_v96) (Shape.idx_ext₂ rfl (off0 64 k)))
        (fun k => congrArg (V c main_arg15) (Shape.idx_ext₂ (off0 64 k) rfl)))
    fun i => ⟨rowPt i, flush9_2 _, (congrArg (i ∈ ·) (View.set_slice_whole main_v97 _)).mpr (mem_rowblk i _ _ (idx2 _) rfl)⟩

end Cert.RegMM

end
-- ==== Proof.RegStats.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.PureOps.Ideal.Laws
import Idealize.ShloMosaic.Lib.ValueIdx
import Idealize.ShloMosaic.Lib.Pipeline.Value
import Idealize.ShloMosaic.Lib.Tactic
import Mathlib.Algebra.BigOperators.Fin

noncomputable section

namespace Cert.RegStats

open Idealize.ShloMosaic Idealize.ShloMosaic.TcCoe Idealize.ShloMosaic.ValueIdx Idealize.SL.Sem Cert.KernelIdeal Cert.KernelIdeal.Gen
open Idealize.ShloMosaic.Pipeline (Dat)
open scoped BigOperators

abbrev Entry : Type := (c : Dev nD) → (b : Ref sig .tc) → Buf (Elt Ideal) ((c : Thread nD τ).loc b)

theorem hz2 : (![0, 0] : Fin 2 → Nat) = fun _ => 0 := funext fun a => by fin_cases a <;> rfl
theorem hz1 : (![0] : Fin 1 → Nat) = fun _ => 0 := funext fun a => by fin_cases a; rfl

theorem biasedBlk_apply (x : Vec Ideal S5000x64 .f32) (b : Vec Ideal S64 .f32) (r : Fin 5000) (q : Fin 64) :
    k1_pay3 (F := Ideal) x b (ix2 r q) = x (ix2 r q) + b (ix1 q) :=
  congrArg₂ (· + ·) (congrFun (shapeCast_self x _) _)
    ((broadcastTo_apply _ broadcasts_S1x64_S5000x64 (ix2 r q) (ix2 (0 : Fin 1) q)
      (fun a => by match a with | ⟨0, _⟩ => rfl | ⟨1, _⟩ => rfl)).trans
      (shapeCast_apply b shapeCasts_S64_S1x64 (ix2 (0 : Fin 1) q) (ix1 q) (by rw [Shape.rowMajor_val_one, Shape.rowMajor_val_two]; simp)))

-- An accumulator row plus the column sums of a block: entry j is the row's entry plus the sum down column j.
theorem addCol_apply (acc : Vec Ideal S1x64 .f32) (y : FVec Ideal S5000x64 .f32) (j : S1x64.Idx) :
    addf (F := Ideal) (φ := .f32) (shapeCast S1x64 acc shapeCasts_S1x64_S1x64)
      (shapeCast S1x64 (multiReduction .add [0] S64 y 0x00000000#32 reduces_S5000x64_S64 (.inl rfl) rfl) shapeCasts_S64_S1x64) j
      = acc j + ∑ r : Fin 5000, y (ix2 r (j 1)) := by
  obtain ⟨j0, q, rfl⟩ : ∃ (j0 : Fin 1) (q : Fin 64), j = ix2 j0 q := ⟨j 0, j 1, eq_ix2 j⟩
  obtain rfl : j0 = 0 := Subsingleton.elim _ _
  refine congrArg₂ (· + ·) (congrFun (shapeCast_self acc _) _) ?_
  rw [shapeCast_apply _ shapeCasts_S64_S1x64 (ix2 (0 : Fin 1) q) (ix1 q) (by rw [Shape.rowMajor_val_one, Shape.rowMajor_val_two]; simp)]
  refine (Ideal.multiReduction_add_single y _ reduces_S5000x64_S64 (.inl rfl) rfl (ix1 q)).trans ?_
  refine Finset.sum_congr rfl fun r _ => congrArg y ?_
  funext a
  match a with
  | ⟨0, _⟩ => rfl
  | ⟨1, _⟩ => rfl

def term (φ : EReal → EReal) (A : Vec Ideal S50000x64 .f32) (B : Vec Ideal S64 .f32) (q : Fin 64) (n : ℕ) : EReal :=
  if h : n < 50000 then φ (A (ix2 ⟨n, h⟩ q) + B (ix1 q)) else 0

def partialSum (φ : EReal → EReal) (A : Vec Ideal S50000x64 .f32) (B : Vec Ideal S64 .f32) (m : ℕ) : Vec Ideal S1x64 .f32 :=
  fun j => ∑ k ∈ Finset.range m, term φ A B (j 1) k

def upd (φ : EReal → EReal) (x : Vec Ideal S5000x64 .f32) (b : Vec Ideal S64 .f32) (acc : Vec Ideal S1x64 .f32) :
    Vec Ideal S1x64 .f32 := fun j => acc j + ∑ r : Fin 5000, φ (x (ix2 r (j 1)) + b (ix1 (j 1)))

abbrev upd2 (x : Vec Ideal S5000x64 .f32) (b : Vec Ideal S64 .f32) (a1 a2 : Vec Ideal S1x64 .f32) :
    Vec Ideal S1x64 .f32 × Vec Ideal S1x64 .f32 := (upd (fun x => x) x b a1, upd (fun x => x * x) x b a2)

abbrev sums (A : Vec Ideal S50000x64 .f32) (B : Vec Ideal S64 .f32) (m : ℕ) :
    Vec Ideal S1x64 .f32 × Vec Ideal S1x64 .f32 := (partialSum (fun x => x) A B m, partialSum (fun x => x * x) A B m)

theorem partialSum_zero (φ : EReal → EReal) (A : Vec Ideal S50000x64 .f32) (B : Vec Ideal S64 .f32) :
    partialSum φ A B 0 = fun _ => 0 := funext fun _ => Finset.sum_range_zero _

-- Adding block t's 5000 rows to the sum of the first 5000·t rows gives the sum of the first 5000·(t+1) rows.
theorem upd_partialSum (φ : EReal → EReal) (A : Vec Ideal S50000x64 .f32) (B : Vec Ideal S64 .f32)
    (x : Vec Ideal S5000x64 .f32) (b : Vec Ideal S64 .f32) (t : ℕ) (ht : t < 10)
    (hx : ∀ (r : Fin 5000) (q : Fin 64) h, x (ix2 r q) = A (ix2 ⟨t * 5000 + r.val, h⟩ q))
    (hb : ∀ q : Fin 64, b (ix1 q) = B (ix1 q)) (acc : Vec Ideal S1x64 .f32) (hacc : acc = partialSum φ A B (t * 5000)) :
    upd φ x b acc = partialSum φ A B ((t + 1) * 5000) := by
  subst hacc
  funext j
  unfold upd partialSum
  rw [show (t + 1) * 5000 = t * 5000 + 5000 by ring, Finset.sum_range_add,
    ← Fin.sum_univ_eq_sum_range (fun r => term φ A B (j 1) (t * 5000 + r)) 5000]
  refine congrArg₂ (· + ·) rfl (Finset.sum_congr rfl fun r _ => ?_)
  have hr : t * 5000 + r.val < 50000 := by have := r.isLt; omega
  unfold term
  rw [dif_pos hr, hx r (j 1) hr, hb (j 1)]

theorem biased_apply (A : Vec Ideal S50000x64 .f32) (B : Vec Ideal S64 .f32) (n : Fin 50000) (q : Fin 64) :
    Cert.Stages.biased (F := Ideal) A B (ix2 n q) = A (ix2 n q) + B (ix1 q) := by
  unfold Cert.Stages.biased Cert.Stages.rows
  show A (ix2 n q) + _ = _
  refine congrArg (A (ix2 n q) + ·) ?_
  refine (broadcastInDim_apply _ _ _ (ix2 n q) (ix2 (0 : Fin 1) q) (fun a => by match a with | ⟨0, _⟩ => rfl | ⟨1, _⟩ => rfl)).trans ?_
  exact broadcastInDim_apply _ _ B (ix2 (0 : Fin 1) q) (ix1 q) (fun a => by match a with | ⟨0, _⟩ => rfl)

-- The column sums of φ over the biased aggregate are the sum of all 50000 terms.
theorem colSum_eq (φ : EReal → EReal) (A : Vec Ideal S50000x64 .f32) (B : Vec Ideal S64 .f32) :
    Cert.KMath.colSum (fun i => φ (Cert.Stages.biased (F := Ideal) A B i)) = partialSum φ A B 50000 := by
  funext j
  unfold Cert.KMath.colSum partialSum
  rw [← Fin.sum_univ_eq_sum_range (fun k => term φ A B (j 1) k) 50000]
  refine Finset.sum_congr rfl fun n _ => ?_
  unfold term
  rw [dif_pos n.isLt]
  exact congrArg φ (biased_apply A B n (j 1))

theorem sum1_eq (A : Vec Ideal S50000x64 .f32) (B : Vec Ideal S64 .f32) :
    Cert.KMath.sum1 A B = partialSum (fun x => x) A B 50000 := colSum_eq (fun x => x) A B

theorem sum2_eq (A : Vec Ideal S50000x64 .f32) (B : Vec Ideal S64 .f32) :
    Cert.KMath.sum2 A B = partialSum (fun x => x * x) A B 50000 := colSum_eq (fun x => x * x) A B

theorem pay1_eq : k1_pay1 (F := Ideal) = fun _ => 0 := funext fun _ => Ideal.ofBits_zero_f32

-- Both accumulators' updates in closed form; at the first point they start from zero.
theorem pays (x : Vec Ideal S5000x64 .f32) (b : Vec Ideal S64 .f32) (a1 a2 : Vec Ideal S1x64 .f32) :
    (k1_pay4 (F := Ideal) x b a1, k1_pay5 (F := Ideal) x b a2) = upd2 x b a1 a2 :=
  congrArg₂ Prod.mk
    (funext fun j => (addCol_apply a1 _ j).trans
      (congrArg (a1 j + ·) (Finset.sum_congr rfl fun r _ => biasedBlk_apply x b r (j 1))))
    (funext fun j => (addCol_apply a2 _ j).trans
      (congrArg (a2 j + ·) (Finset.sum_congr rfl fun r _ =>
        congrArg₂ (· * ·) (biasedBlk_apply x b r (j 1)) (biasedBlk_apply x b r (j 1)))))

theorem pays0 (x : Vec Ideal S5000x64 .f32) (b : Vec Ideal S64 .f32) :
    (k1_pay4 (F := Ideal) x b (k1_pay1 (F := Ideal)), k1_pay5 (F := Ideal) x b (k1_pay1 (F := Ideal)))
      = upd2 x b (fun _ => 0) fun _ => 0 :=
  (pays x b _ _).trans (congrArg (fun z => upd2 x b z z) pay1_eq)

-- After point n the two accumulators hold the sums, and the sums of squares, over the first 5000·(n+1) rows.
theorem run_eq {N : ℕ} (hN : N = 10) {A : Vec Ideal S50000x64 .f32} {B : Vec Ideal S64 .f32}
    {X : Fin N → Vec Ideal S5000x64 .f32} {Y : Fin N → Vec Ideal S64 .f32}
    (hX : ∀ t r q h, X t (ix2 r q) = A (ix2 ⟨t.val * 5000 + r.val, h⟩ q)) (hY : ∀ t q, Y t (ix1 q) = B (ix1 q))
    (f : (n : ℕ) → n < N → Vec Ideal S1x64 .f32 × Vec Ideal S1x64 .f32)
    (h0 : ∀ h, f 0 h = upd2 (X ⟨0, h⟩) (Y ⟨0, h⟩) (fun _ => 0) fun _ => 0)
    (hs : ∀ n h, f (n + 1) h
      = upd2 (X ⟨n + 1, h⟩) (Y ⟨n + 1, h⟩) (f n (Nat.lt_of_succ_lt h)).1 (f n (Nat.lt_of_succ_lt h)).2) :
    ∀ n h, f n h = sums A B ((n + 1) * 5000)
  | 0, h =>
    have st := fun φ => upd_partialSum φ A B _ _ 0 (by omega) (hX ⟨0, h⟩) (hY ⟨0, h⟩) _ (partialSum_zero φ A B).symm
    (h0 h).trans (congrArg₂ Prod.mk (st _) (st _))
  | n + 1, h =>
    have ih := run_eq hN hX hY f h0 hs n (Nat.lt_of_succ_lt h)
    have st := fun φ => upd_partialSum φ A B _ _ (n + 1) (hN ▸ h) (hX ⟨n + 1, h⟩) (hY ⟨n + 1, h⟩)
    (hs n h).trans (congrArg₂ Prod.mk (st _ _ (congrArg Prod.fst ih)) (st _ _ (congrArg Prod.snd ih)))

-- Only the last of the ten points decides the array, and its block is all of it.
theorem arrAt_last {cfg : Pipeline.Cfg sig Λ₀} {c : Dev nD} (dat : Dat τ (Elt Ideal) Unit ℕ (UR sig nD τ) ℕ cfg c) (w : Fin cfg.W)
    (hN : cfg.N = 10) (hf : ∀ t : Fin cfg.N, (cfg.win w).flush t = true ↔ t.val % 10 = 9)
    (G : Buf (Elt Ideal) ((cfg.win w).arr.view.loc (c.tc : Thread nD τ)))
    (hG : ∀ t : Fin cfg.N, t.val = 9 → dat.flushed w t = ((cfg.win w).blk t).view.read (Elt Ideal) G)
    (hall : ∀ (t : Fin cfg.N) (i : ((cfg.win w).arr.view.loc (c.tc : Thread nD τ)).2.ty.Idx), ∃ y, ((cfg.win w).blk t).view.emb y = i) :
    dat.arrAt w cfg.N = G :=
  dat.arrAt_eq_of_cover w G (fun t h => hG t (by have := (hf t).mp h; have := lt_of_lt_of_eq t.isLt hN; omega))
    fun i => have h9 : 9 < cfg.N := by omega
      let ⟨y, e⟩ := hall ⟨9, h9⟩ i; ⟨⟨9, h9⟩, (hf _).mpr rfl, e ▸ View.emb_mem_set _ y⟩

namespace R1

theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem xblk_apply (V : Entry) (c : Dev nD) (t : Fin cfg1.N) (r : Fin 5000) (q : Fin 64) (h) :
    (iblk1 (F := Ideal) V c 0 t : Vec Ideal S5000x64 .f32) (ix2 r q) = V c main_v44 (ix2 ⟨t.val * 5000 + r.val, h⟩ q) :=
  show V c main_v44 (((cfg1.win 0).blk t).view.emb (ix2 r q)) = _ from congrArg _ (Shape.idx_ext₂
    ((win1_0.rect_emb_val t (ix2 r q) (0 : Fin 2)).trans (congrArg (· * 5000 + r.val) (idx_facts t).1))
    (win1_0.rect_emb_val_of_index_zero t (1 : Fin 2) (idx_facts t).2.1 (ix2 r q)))

theorem bblk_apply (V : Entry) (c : Dev nD) (t : Fin cfg1.N) (q : Fin 64) :
    (iblk1 (F := Ideal) V c 1 t : Vec Ideal S64 .f32) (ix1 q) = V c main_arg4 (ix1 q) :=
  show V c main_arg4 (((cfg1.win 1).blk t).view.emb (ix1 q)) = _ from congrArg _ (funext fun a => Fin.ext (by
    match a with
    | ⟨0, _⟩ => exact win1_1.rect_emb_val_of_index_zero t (0 : Fin 1) (idx_facts t).2.2.1 (ix1 q)))

theorem emb2 (t : Fin cfg1.N) (j : S1x64.Idx) : ((cfg1.win 2).blk t).view.emb j = j :=
  Shape.idx_ext₂ (win1_2.rect_emb_val_of_index_zero t (0 : Fin 2) (idx_facts t).2.2.2.1 j)
    (win1_2.rect_emb_val_of_index_zero t (1 : Fin 2) (idx_facts t).2.2.2.2.1 j)

theorem emb3 (t : Fin cfg1.N) (j : S1x64.Idx) : ((cfg1.win 3).blk t).view.emb j = j :=
  Shape.idx_ext₂ (win1_3.rect_emb_val_of_index_zero t (0 : Fin 2) (idx_facts t).2.2.2.2.2.1 j)
    (win1_3.rect_emb_val_of_index_zero t (1 : Fin 2) (idx_facts t).2.2.2.2.2.2 j)

theorem out_A {c i a1 h1 a2 h2 a3 h3 a4 h4 hc x b} :
    (out1_A_2 (F := Ideal) c i a1 h1 a2 h2 a3 h3 a4 h4 hc x b, out1_A_3 (F := Ideal) c i a1 h1 a2 h2 a3 h3 a4 h4 hc x b)
      = upd2 x b (fun _ => 0) fun _ => 0 := by
  unfold out1_A_2 out1_A_3
  rw [View.read_writes_eq_canon _ _ _ (cover1_A_2 c i a1 h1 a2 h2 a3 h3 a4 h4 hc x b),
    View.read_writes_eq_canon _ _ _ (cover1_A_3 c i a1 h1 a2 h2 a3 h3 a4 h4 hc x b)]
  unfold kernelRun1_A
  dsimp only
  sl_unfold_words
  rw [View.canon_cons_unit_zero (S := S1x64) hz2, View.canon_cons_unit_zero (S := S1x64) hz2]
  simp only [View.readAt_eq_ld, h1.read_unread, h2.read_unread, View.readCov_unit_zero (S := S1x64) _ hz2,
    View.ld_unit_zero (S := S5000x64) hz2, View.ld_unit_zero (S := S64) hz1, View.ld_unit_zero (S := S1x64) hz2]
  exact pays0 x b

theorem out_B {c i a1 h1 a2 h2 a3 h3 a4 h4 hc x b xo2 xo3} :
    (out1_B_2 (F := Ideal) c i a1 h1 a2 h2 a3 h3 a4 h4 hc x b xo2 xo3, out1_B_3 (F := Ideal) c i a1 h1 a2 h2 a3 h3 a4 h4 hc x b xo2 xo3)
      = upd2 x b xo2 xo3 := by
  unfold out1_B_2 out1_B_3
  rw [View.read_writes_eq_canon _ _ _ (cover1_B_2 c i a1 h1 a2 h2 a3 h3 a4 h4 hc x b xo2 xo3),
    View.read_writes_eq_canon _ _ _ (cover1_B_3 c i a1 h1 a2 h2 a3 h3 a4 h4 hc x b xo2 xo3)]
  unfold kernelRun1_B
  dsimp only
  sl_unfold_words
  rw [View.canon_unit_zero hz2, View.canon_unit_zero hz2]
  simp only [View.readAt_eq_ld, h1.read_unread, h2.read_unread, h3.read_unread, h4.read_unread,
    View.ld_unit_zero (S := S5000x64) hz2, View.ld_unit_zero (S := S64) hz1, View.ld_unit_zero (S := S1x64) hz2]
  exact pays x b xo2 xo3

theorem last (V : Entry) (c : Dev nD) (t : Fin cfg1.N) (h9 : t.val = 9) :
    outsAt1 (F := Ideal) V c t.val t.isLt = sums (V c main_v44) (V c main_arg4) 50000 := by
  rw [run_eq N_1 (xblk_apply V c) (bblk_apply V c)
    (outsAt1 (F := Ideal) V c) (fun h => (outsAt1_A V c ⟨0, h⟩ rfl).trans out_A)
    (fun n h => (outsAt1_B V c ⟨n + 1, h⟩ (by have := lt_of_lt_of_eq h N_1; dsimp only; omega)).trans out_B) t.val t.isLt, h9]

-- Read through a block that is the whole row, an accumulator is itself.
theorem flushed (V : Entry) (c : Dev nD) (t : Fin cfg1.N) (P Q : Vec Ideal S1x64 .f32)
    (h : outsAt1 (F := Ideal) V c t.val t.isLt = (P, Q)) :
    (dat1 (F := Ideal) V c).flushed 2 t = ((cfg1.win 2).blk t).view.read (Elt Ideal) P
      ∧ (dat1 (F := Ideal) V c).flushed 3 t = ((cfg1.win 3).blk t).view.read (Elt Ideal) Q :=
  ⟨((after1_2 V c t).trans (congrArg Prod.fst h)).trans (funext fun j => congrArg P (emb2 t j).symm),
    ((after1_3 V c t).trans (congrArg Prod.snd h)).trans (funext fun j => congrArg Q (emb3 t j).symm)⟩

end R1

theorem s1_1 (V : Entry) (c : Dev nD) :
    (dat1 (F := Ideal) V c).arrAt 2 cfg1.N = Cert.KMath.sum1 (V c main_v44) (V c main_arg4) :=
  (arrAt_last (dat1 V c) 2 N_1 flush1_2 _ (fun t h9 => (R1.flushed V c t _ _ (R1.last V c t h9)).1)
    fun t i => ⟨i, R1.emb2 t i⟩).trans (sum1_eq _ _).symm
theorem s2_1 (V : Entry) (c : Dev nD) :
    (dat1 (F := Ideal) V c).arrAt 3 cfg1.N = Cert.KMath.sum2 (V c main_v44) (V c main_arg4) :=
  (arrAt_last (dat1 V c) 3 N_1 flush1_3 _ (fun t h9 => (R1.flushed V c t _ _ (R1.last V c t h9)).2)
    fun t i => ⟨i, R1.emb3 t i⟩).trans (sum2_eq _ _).symm

namespace R4

theorem idx_facts : ∀ t : Fin cfg4.N, win4_0.index t (0 : Fin 2) = t.val ∧ win4_0.index t (1 : Fin 2) = 0
    ∧ win4_1.index t (0 : Fin 1) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem xblk_apply (V : Entry) (c : Dev nD) (t : Fin cfg4.N) (r : Fin 5000) (q : Fin 64) (h) :
    (iblk4 (F := Ideal) V c 0 t : Vec Ideal S5000x64 .f32) (ix2 r q) = V c main_v66 (ix2 ⟨t.val * 5000 + r.val, h⟩ q) :=
  show V c main_v66 (((cfg4.win 0).blk t).view.emb (ix2 r q)) = _ from congrArg _ (Shape.idx_ext₂
    ((win4_0.rect_emb_val t (ix2 r q) (0 : Fin 2)).trans (congrArg (· * 5000 + r.val) (idx_facts t).1))
    (win4_0.rect_emb_val_of_index_zero t (1 : Fin 2) (idx_facts t).2.1 (ix2 r q)))

theorem bblk_apply (V : Entry) (c : Dev nD) (t : Fin cfg4.N) (q : Fin 64) :
    (iblk4 (F := Ideal) V c 1 t : Vec Ideal S64 .f32) (ix1 q) = V c main_arg8 (ix1 q) :=
  show V c main_arg8 (((cfg4.win 1).blk t).view.emb (ix1 q)) = _ from congrArg _ (funext fun a => Fin.ext (by
    match a with
    | ⟨0, _⟩ => exact win4_1.rect_emb_val_of_index_zero t (0 : Fin 1) (idx_facts t).2.2.1 (ix1 q)))

theorem emb2 (t : Fin cfg4.N) (j : S1x64.Idx) : ((cfg4.win 2).blk t).view.emb j = j :=
  Shape.idx_ext₂ (win4_2.rect_emb_val_of_index_zero t (0 : Fin 2) (idx_facts t).2.2.2.1 j)
    (win4_2.rect_emb_val_of_index_zero t (1 : Fin 2) (idx_facts t).2.2.2.2.1 j)

theorem emb3 (t : Fin cfg4.N) (j : S1x64.Idx) : ((cfg4.win 3).blk t).view.emb j = j :=
  Shape.idx_ext₂ (win4_3.rect_emb_val_of_index_zero t (0 : Fin 2) (idx_facts t).2.2.2.2.2.1 j)
    (win4_3.rect_emb_val_of_index_zero t (1 : Fin 2) (idx_facts t).2.2.2.2.2.2 j)

theorem out_A {c i a1 h1 a2 h2 a3 h3 a4 h4 hc x b} :
    (out4_A_2 (F := Ideal) c i a1 h1 a2 h2 a3 h3 a4 h4 hc x b, out4_A_3 (F := Ideal) c i a1 h1 a2 h2 a3 h3 a4 h4 hc x b)
      = upd2 x b (fun _ => 0) fun _ => 0 := by
  unfold out4_A_2 out4_A_3
  rw [View.read_writes_eq_canon _ _ _ (cover4_A_2 c i a1 h1 a2 h2 a3 h3 a4 h4 hc x b),
    View.read_writes_eq_canon _ _ _ (cover4_A_3 c i a1 h1 a2 h2 a3 h3 a4 h4 hc x b)]
  unfold kernelRun4_A
  dsimp only
  sl_unfold_words
  rw [View.canon_cons_unit_zero (S := S1x64) hz2, View.canon_cons_unit_zero (S := S1x64) hz2]
  simp only [View.readAt_eq_ld, h1.read_unread, h2.read_unread, View.readCov_unit_zero (S := S1x64) _ hz2,
    View.ld_unit_zero (S := S5000x64) hz2, View.ld_unit_zero (S := S64) hz1, View.ld_unit_zero (S := S1x64) hz2]
  exact pays0 x b

theorem out_B {c i a1 h1 a2 h2 a3 h3 a4 h4 hc x b xo2 xo3} :
    (out4_B_2 (F := Ideal) c i a1 h1 a2 h2 a3 h3 a4 h4 hc x b xo2 xo3, out4_B_3 (F := Ideal) c i a1 h1 a2 h2 a3 h3 a4 h4 hc x b xo2 xo3)
      = upd2 x b xo2 xo3 := by
  unfold out4_B_2 out4_B_3
  rw [View.read_writes_eq_canon _ _ _ (cover4_B_2 c i a1 h1 a2 h2 a3 h3 a4 h4 hc x b xo2 xo3),
    View.read_writes_eq_canon _ _ _ (cover4_B_3 c i a1 h1 a2 h2 a3 h3 a4 h4 hc x b xo2 xo3)]
  unfold kernelRun4_B
  dsimp only
  sl_unfold_words
  rw [View.canon_unit_zero hz2, View.canon_unit_zero hz2]
  simp only [View.readAt_eq_ld, h1.read_unread, h2.read_unread, h3.read_unread, h4.read_unread,
    View.ld_unit_zero (S := S5000x64) hz2, View.ld_unit_zero (S := S64) hz1, View.ld_unit_zero (S := S1x64) hz2]
  exact pays x b xo2 xo3

theorem last (V : Entry) (c : Dev nD) (t : Fin cfg4.N) (h9 : t.val = 9) :
    outsAt4 (F := Ideal) V c t.val t.isLt = sums (V c main_v66) (V c main_arg8) 50000 := by
  rw [run_eq N_4 (xblk_apply V c) (bblk_apply V c)
    (outsAt4 (F := Ideal) V c) (fun h => (outsAt4_A V c ⟨0, h⟩ rfl).trans out_A)
    (fun n h => (outsAt4_B V c ⟨n + 1, h⟩ (by have := lt_of_lt_of_eq h N_4; dsimp only; omega)).trans out_B) t.val t.isLt, h9]

theorem flushed (V : Entry) (c : Dev nD) (t : Fin cfg4.N) (P Q : Vec Ideal S1x64 .f32)
    (h : outsAt4 (F := Ideal) V c t.val t.isLt = (P, Q)) :
    (dat4 (F := Ideal) V c).flushed 2 t = ((cfg4.win 2).blk t).view.read (Elt Ideal) P
      ∧ (dat4 (F := Ideal) V c).flushed 3 t = ((cfg4.win 3).blk t).view.read (Elt Ideal) Q :=
  ⟨((after4_2 V c t).trans (congrArg Prod.fst h)).trans (funext fun j => congrArg P (emb2 t j).symm),
    ((after4_3 V c t).trans (congrArg Prod.snd h)).trans (funext fun j => congrArg Q (emb3 t j).symm)⟩

end R4

theorem s1_4 (V : Entry) (c : Dev nD) :
    (dat4 (F := Ideal) V c).arrAt 2 cfg4.N = Cert.KMath.sum1 (V c main_v66) (V c main_arg8) :=
  (arrAt_last (dat4 V c) 2 N_4 flush4_2 _ (fun t h9 => (R4.flushed V c t _ _ (R4.last V c t h9)).1)
    fun t i => ⟨i, R4.emb2 t i⟩).trans (sum1_eq _ _).symm
theorem s2_4 (V : Entry) (c : Dev nD) :
    (dat4 (F := Ideal) V c).arrAt 3 cfg4.N = Cert.KMath.sum2 (V c main_v66) (V c main_arg8) :=
  (arrAt_last (dat4 V c) 3 N_4 flush4_3 _ (fun t h9 => (R4.flushed V c t _ _ (R4.last V c t h9)).2)
    fun t i => ⟨i, R4.emb3 t i⟩).trans (sum2_eq _ _).symm

namespace R7

theorem idx_facts : ∀ t : Fin cfg7.N, win7_0.index t (0 : Fin 2) = t.val ∧ win7_0.index t (1 : Fin 2) = 0
    ∧ win7_1.index t (0 : Fin 1) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem xblk_apply (V : Entry) (c : Dev nD) (t : Fin cfg7.N) (r : Fin 5000) (q : Fin 64) (h) :
    (iblk7 (F := Ideal) V c 0 t : Vec Ideal S5000x64 .f32) (ix2 r q) = V c main_v88 (ix2 ⟨t.val * 5000 + r.val, h⟩ q) :=
  show V c main_v88 (((cfg7.win 0).blk t).view.emb (ix2 r q)) = _ from congrArg _ (Shape.idx_ext₂
    ((win7_0.rect_emb_val t (ix2 r q) (0 : Fin 2)).trans (congrArg (· * 5000 + r.val) (idx_facts t).1))
    (win7_0.rect_emb_val_of_index_zero t (1 : Fin 2) (idx_facts t).2.1 (ix2 r q)))

theorem bblk_apply (V : Entry) (c : Dev nD) (t : Fin cfg7.N) (q : Fin 64) :
    (iblk7 (F := Ideal) V c 1 t : Vec Ideal S64 .f32) (ix1 q) = V c main_arg12 (ix1 q) :=
  show V c main_arg12 (((cfg7.win 1).blk t).view.emb (ix1 q)) = _ from congrArg _ (funext fun a => Fin.ext (by
    match a with
    | ⟨0, _⟩ => exact win7_1.rect_emb_val_of_index_zero t (0 : Fin 1) (idx_facts t).2.2.1 (ix1 q)))

theorem emb2 (t : Fin cfg7.N) (j : S1x64.Idx) : ((cfg7.win 2).blk t).view.emb j = j :=
  Shape.idx_ext₂ (win7_2.rect_emb_val_of_index_zero t (0 : Fin 2) (idx_facts t).2.2.2.1 j)
    (win7_2.rect_emb_val_of_index_zero t (1 : Fin 2) (idx_facts t).2.2.2.2.1 j)

theorem emb3 (t : Fin cfg7.N) (j : S1x64.Idx) : ((cfg7.win 3).blk t).view.emb j = j :=
  Shape.idx_ext₂ (win7_3.rect_emb_val_of_index_zero t (0 : Fin 2) (idx_facts t).2.2.2.2.2.1 j)
    (win7_3.rect_emb_val_of_index_zero t (1 : Fin 2) (idx_facts t).2.2.2.2.2.2 j)

theorem out_A {c i a1 h1 a2 h2 a3 h3 a4 h4 hc x b} :
    (out7_A_2 (F := Ideal) c i a1 h1 a2 h2 a3 h3 a4 h4 hc x b, out7_A_3 (F := Ideal) c i a1 h1 a2 h2 a3 h3 a4 h4 hc x b)
      = upd2 x b (fun _ => 0) fun _ => 0 := by
  unfold out7_A_2 out7_A_3
  rw [View.read_writes_eq_canon _ _ _ (cover7_A_2 c i a1 h1 a2 h2 a3 h3 a4 h4 hc x b),
    View.read_writes_eq_canon _ _ _ (cover7_A_3 c i a1 h1 a2 h2 a3 h3 a4 h4 hc x b)]
  unfold kernelRun7_A
  dsimp only
  sl_unfold_words
  rw [View.canon_cons_unit_zero (S := S1x64) hz2, View.canon_cons_unit_zero (S := S1x64) hz2]
  simp only [View.readAt_eq_ld, h1.read_unread, h2.read_unread, View.readCov_unit_zero (S := S1x64) _ hz2,
    View.ld_unit_zero (S := S5000x64) hz2, View.ld_unit_zero (S := S64) hz1, View.ld_unit_zero (S := S1x64) hz2]
  exact pays0 x b

theorem out_B {c i a1 h1 a2 h2 a3 h3 a4 h4 hc x b xo2 xo3} :
    (out7_B_2 (F := Ideal) c i a1 h1 a2 h2 a3 h3 a4 h4 hc x b xo2 xo3, out7_B_3 (F := Ideal) c i a1 h1 a2 h2 a3 h3 a4 h4 hc x b xo2 xo3)
      = upd2 x b xo2 xo3 := by
  unfold out7_B_2 out7_B_3
  rw [View.read_writes_eq_canon _ _ _ (cover7_B_2 c i a1 h1 a2 h2 a3 h3 a4 h4 hc x b xo2 xo3),
    View.read_writes_eq_canon _ _ _ (cover7_B_3 c i a1 h1 a2 h2 a3 h3 a4 h4 hc x b xo2 xo3)]
  unfold kernelRun7_B
  dsimp only
  sl_unfold_words
  rw [View.canon_unit_zero hz2, View.canon_unit_zero hz2]
  simp only [View.readAt_eq_ld, h1.read_unread, h2.read_unread, h3.read_unread, h4.read_unread,
    View.ld_unit_zero (S := S5000x64) hz2, View.ld_unit_zero (S := S64) hz1, View.ld_unit_zero (S := S1x64) hz2]
  exact pays x b xo2 xo3

theorem last (V : Entry) (c : Dev nD) (t : Fin cfg7.N) (h9 : t.val = 9) :
    outsAt7 (F := Ideal) V c t.val t.isLt = sums (V c main_v88) (V c main_arg12) 50000 := by
  rw [run_eq N_7 (xblk_apply V c) (bblk_apply V c)
    (outsAt7 (F := Ideal) V c) (fun h => (outsAt7_A V c ⟨0, h⟩ rfl).trans out_A)
    (fun n h => (outsAt7_B V c ⟨n + 1, h⟩ (by have := lt_of_lt_of_eq h N_7; dsimp only; omega)).trans out_B) t.val t.isLt, h9]

theorem flushed (V : Entry) (c : Dev nD) (t : Fin cfg7.N) (P Q : Vec Ideal S1x64 .f32)
    (h : outsAt7 (F := Ideal) V c t.val t.isLt = (P, Q)) :
    (dat7 (F := Ideal) V c).flushed 2 t = ((cfg7.win 2).blk t).view.read (Elt Ideal) P
      ∧ (dat7 (F := Ideal) V c).flushed 3 t = ((cfg7.win 3).blk t).view.read (Elt Ideal) Q :=
  ⟨((after7_2 V c t).trans (congrArg Prod.fst h)).trans (funext fun j => congrArg P (emb2 t j).symm),
    ((after7_3 V c t).trans (congrArg Prod.snd h)).trans (funext fun j => congrArg Q (emb3 t j).symm)⟩

end R7

theorem s1_7 (V : Entry) (c : Dev nD) :
    (dat7 (F := Ideal) V c).arrAt 2 cfg7.N = Cert.KMath.sum1 (V c main_v88) (V c main_arg12) :=
  (arrAt_last (dat7 V c) 2 N_7 flush7_2 _ (fun t h9 => (R7.flushed V c t _ _ (R7.last V c t h9)).1)
    fun t i => ⟨i, R7.emb2 t i⟩).trans (sum1_eq _ _).symm
theorem s2_7 (V : Entry) (c : Dev nD) :
    (dat7 (F := Ideal) V c).arrAt 3 cfg7.N = Cert.KMath.sum2 (V c main_v88) (V c main_arg12) :=
  (arrAt_last (dat7 V c) 3 N_7 flush7_3 _ (fun t h9 => (R7.flushed V c t _ _ (R7.last V c t h9)).2)
    fun t i => ⟨i, R7.emb3 t i⟩).trans (sum2_eq _ _).symm

namespace R10

theorem idx_facts : ∀ t : Fin cfg10.N, win10_0.index t (0 : Fin 2) = t.val ∧ win10_0.index t (1 : Fin 2) = 0
    ∧ win10_1.index t (0 : Fin 1) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

theorem xblk_apply (V : Entry) (c : Dev nD) (t : Fin cfg10.N) (r : Fin 5000) (q : Fin 64) (h) :
    (iblk10 (F := Ideal) V c 0 t : Vec Ideal S5000x64 .f32) (ix2 r q) = V c main_v110 (ix2 ⟨t.val * 5000 + r.val, h⟩ q) :=
  show V c main_v110 (((cfg10.win 0).blk t).view.emb (ix2 r q)) = _ from congrArg _ (Shape.idx_ext₂
    ((win10_0.rect_emb_val t (ix2 r q) (0 : Fin 2)).trans (congrArg (· * 5000 + r.val) (idx_facts t).1))
    (win10_0.rect_emb_val_of_index_zero t (1 : Fin 2) (idx_facts t).2.1 (ix2 r q)))

theorem bblk_apply (V : Entry) (c : Dev nD) (t : Fin cfg10.N) (q : Fin 64) :
    (iblk10 (F := Ideal) V c 1 t : Vec Ideal S64 .f32) (ix1 q) = V c main_arg16 (ix1 q) :=
  show V c main_arg16 (((cfg10.win 1).blk t).view.emb (ix1 q)) = _ from congrArg _ (funext fun a => Fin.ext (by
    match a with
    | ⟨0, _⟩ => exact win10_1.rect_emb_val_of_index_zero t (0 : Fin 1) (idx_facts t).2.2.1 (ix1 q)))

theorem emb2 (t : Fin cfg10.N) (j : S1x64.Idx) : ((cfg10.win 2).blk t).view.emb j = j :=
  Shape.idx_ext₂ (win10_2.rect_emb_val_of_index_zero t (0 : Fin 2) (idx_facts t).2.2.2.1 j)
    (win10_2.rect_emb_val_of_index_zero t (1 : Fin 2) (idx_facts t).2.2.2.2.1 j)

theorem emb3 (t : Fin cfg10.N) (j : S1x64.Idx) : ((cfg10.win 3).blk t).view.emb j = j :=
  Shape.idx_ext₂ (win10_3.rect_emb_val_of_index_zero t (0 : Fin 2) (idx_facts t).2.2.2.2.2.1 j)
    (win10_3.rect_emb_val_of_index_zero t (1 : Fin 2) (idx_facts t).2.2.2.2.2.2 j)

theorem out_A {c i a1 h1 a2 h2 a3 h3 a4 h4 hc x b} :
    (out10_A_2 (F := Ideal) c i a1 h1 a2 h2 a3 h3 a4 h4 hc x b, out10_A_3 (F := Ideal) c i a1 h1 a2 h2 a3 h3 a4 h4 hc x b)
      = upd2 x b (fun _ => 0) fun _ => 0 := by
  unfold out10_A_2 out10_A_3
  rw [View.read_writes_eq_canon _ _ _ (cover10_A_2 c i a1 h1 a2 h2 a3 h3 a4 h4 hc x b),
    View.read_writes_eq_canon _ _ _ (cover10_A_3 c i a1 h1 a2 h2 a3 h3 a4 h4 hc x b)]
  unfold kernelRun10_A
  dsimp only
  sl_unfold_words
  rw [View.canon_cons_unit_zero (S := S1x64) hz2, View.canon_cons_unit_zero (S := S1x64) hz2]
  simp only [View.readAt_eq_ld, h1.read_unread, h2.read_unread, View.readCov_unit_zero (S := S1x64) _ hz2,
    View.ld_unit_zero (S := S5000x64) hz2, View.ld_unit_zero (S := S64) hz1, View.ld_unit_zero (S := S1x64) hz2]
  exact pays0 x b

theorem out_B {c i a1 h1 a2 h2 a3 h3 a4 h4 hc x b xo2 xo3} :
    (out10_B_2 (F := Ideal) c i a1 h1 a2 h2 a3 h3 a4 h4 hc x b xo2 xo3, out10_B_3 (F := Ideal) c i a1 h1 a2 h2 a3 h3 a4 h4 hc x b xo2 xo3)
      = upd2 x b xo2 xo3 := by
  unfold out10_B_2 out10_B_3
  rw [View.read_writes_eq_canon _ _ _ (cover10_B_2 c i a1 h1 a2 h2 a3 h3 a4 h4 hc x b xo2 xo3),
    View.read_writes_eq_canon _ _ _ (cover10_B_3 c i a1 h1 a2 h2 a3 h3 a4 h4 hc x b xo2 xo3)]
  unfold kernelRun10_B
  dsimp only
  sl_unfold_words
  rw [View.canon_unit_zero hz2, View.canon_unit_zero hz2]
  simp only [View.readAt_eq_ld, h1.read_unread, h2.read_unread, h3.read_unread, h4.read_unread,
    View.ld_unit_zero (S := S5000x64) hz2, View.ld_unit_zero (S := S64) hz1, View.ld_unit_zero (S := S1x64) hz2]
  exact pays x b xo2 xo3

theorem last (V : Entry) (c : Dev nD) (t : Fin cfg10.N) (h9 : t.val = 9) :
    outsAt10 (F := Ideal) V c t.val t.isLt = sums (V c main_v110) (V c main_arg16) 50000 := by
  rw [run_eq N_10 (xblk_apply V c) (bblk_apply V c)
    (outsAt10 (F := Ideal) V c) (fun h => (outsAt10_A V c ⟨0, h⟩ rfl).trans out_A)
    (fun n h => (outsAt10_B V c ⟨n + 1, h⟩ (by have := lt_of_lt_of_eq h N_10; dsimp only; omega)).trans out_B) t.val t.isLt, h9]

theorem flushed (V : Entry) (c : Dev nD) (t : Fin cfg10.N) (P Q : Vec Ideal S1x64 .f32)
    (h : outsAt10 (F := Ideal) V c t.val t.isLt = (P, Q)) :
    (dat10 (F := Ideal) V c).flushed 2 t = ((cfg10.win 2).blk t).view.read (Elt Ideal) P
      ∧ (dat10 (F := Ideal) V c).flushed 3 t = ((cfg10.win 3).blk t).view.read (Elt Ideal) Q :=
  ⟨((after10_2 V c t).trans (congrArg Prod.fst h)).trans (funext fun j => congrArg P (emb2 t j).symm),
    ((after10_3 V c t).trans (congrArg Prod.snd h)).trans (funext fun j => congrArg Q (emb3 t j).symm)⟩

end R10

theorem s1_10 (V : Entry) (c : Dev nD) :
    (dat10 (F := Ideal) V c).arrAt 2 cfg10.N = Cert.KMath.sum1 (V c main_v110) (V c main_arg16) :=
  (arrAt_last (dat10 V c) 2 N_10 flush10_2 _ (fun t h9 => (R10.flushed V c t _ _ (R10.last V c t h9)).1)
    fun t i => ⟨i, R10.emb2 t i⟩).trans (sum1_eq _ _).symm
theorem s2_10 (V : Entry) (c : Dev nD) :
    (dat10 (F := Ideal) V c).arrAt 3 cfg10.N = Cert.KMath.sum2 (V c main_v110) (V c main_arg16) :=
  (arrAt_last (dat10 V c) 3 N_10 flush10_3 _ (fun t h9 => (R10.flushed V c t _ _ (R10.last V c t h9)).2)
    fun t i => ⟨i, R10.emb3 t i⟩).trans (sum2_eq _ _).symm

end Cert.RegStats

end
-- ==== Proof.RegBN.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.Lib.ValueIdx
import Idealize.ShloMosaic.Lib.ValueLayout
import Idealize.ShloMosaic.Lib.Pipeline.Value
import Idealize.ShloMosaic.PureOps.Ideal.Laws

noncomputable section

namespace Cert.RegBN

open Idealize.ShloMosaic Idealize.ShloMosaic.TcCoe Idealize.SL.Sem Cert.KernelIdeal Cert.KernelIdeal.Gen
open Idealize.ShloMosaic.ValueIdx

abbrev Entry : Type := (c : Dev nD) → (b : Ref sig .tc) → Buf (Elt Ideal) ((c : Thread nD τ).loc b)

theorem off2 : (![0, 0] : Fin 2 → Nat) = fun _ => 0 := funext fun a => by fin_cases a <;> rfl
theorem off1 : (![0] : Fin 1 → Nat) = fun _ => 0 := funext fun a => by fin_cases a; rfl

-- Both broadcasts keep the feature coordinate.
theorem rows_apply (v : Cert.KMath.A Cert.ReferenceIdeal.S64) (r : Fin 50000) (j : Fin 64) :
    Cert.Stages.rows (F := Ideal) v (ix2 r j) = v (ix1 j) := by
  unfold Cert.Stages.rows
  exact (broadcastInDim_apply (![0, 1] : Fin 2 → Fin Cert.ReferenceIdeal.S50000x64.rank) Cert.ReferenceIdeal.Facts₀.bcast_S1x64_S50000x64_0_1 _
      (ix2 r j) (ix2 (0 : Fin 1) j) (fun a => by fin_cases a <;> rfl)).trans
    (broadcastInDim_apply (![1] : Fin 1 → Fin Cert.ReferenceIdeal.S1x64.rank) Cert.ReferenceIdeal.Facts₀.bcast_S64_S1x64_1 v
      (ix2 (0 : Fin 1) j) (ix1 j) (fun a => by fin_cases a; rfl))

theorem normReluK_apply (agg : Cert.KMath.A Cert.ReferenceIdeal.S50000x64) (b : Cert.KMath.A Cert.ReferenceIdeal.S64)
    (mu var : Cert.KMath.A Cert.ReferenceIdeal.S1x64) (g bt : Cert.KMath.A Cert.ReferenceIdeal.S64) (r : Fin 50000) (j : Fin 64) :
    Cert.KMath.normReluK agg b mu var g bt (ix2 r j)
      = max (g (ix1 j) * ((agg (ix2 r j) + b (ix1 j)) - mu (ix2 (0 : Fin 1) j)) * Ideal.rsqrt (var (ix2 (0 : Fin 1) j) + Cert.KMath.epsBN) + bt (ix1 j)) 0 := by
  show max (g (ix1 j) * ((agg (ix2 r j) + Cert.Stages.rows (F := Ideal) b (ix2 r j)) - mu (ix2 (0 : Fin 1) j)) * Ideal.rsqrt (var (ix2 (0 : Fin 1) j) + Cert.KMath.epsBN) + bt (ix1 j)) 0 = _
  rw [rows_apply]

-- A rectangle at offset zero of full size is the whole block; each per-feature operand is broadcast along the nodes, so entry (p, j) meets it at j.
theorem out_apply (x0 : Vec Ideal S5000x64 .f32) (x1 : Vec Ideal S64 .f32) (x2 x3 : Vec Ideal S1x64 .f32) (x4 x5 : Vec Ideal S64 .f32)
    (p : Fin 5000) (j : Fin 64) :
    out2_6 (F := Ideal) x0 x1 x2 x3 x4 x5 (ix2 p j)
      = max (x4 (ix1 j) * ((x0 (ix2 p j) + x1 (ix1 j)) - x2 (ix2 (0 : Fin 1) j)) * Ideal.rsqrt (x3 (ix2 (0 : Fin 1) j) + Cert.KMath.epsBN) + x5 (ix1 j)) 0 := by
  unfold out2_6 k2_pay1
  rw [View.canon_unit_zero off2]
  show max (broadcastTo _ _ _ (ix2 p j) * ((shapeCast _ _ _ (ix2 p j) + broadcastTo _ _ _ (ix2 p j)) - broadcastTo _ _ _ (ix2 p j))
    * broadcastTo _ _ _ (ix2 p j) + broadcastTo _ _ _ (ix2 p j)) _ = _
  simp only [View.ld_unit_zero (S := S5000x64) off2, View.ld_unit_zero (S := S64) off1, View.ld_unit_zero (S := S1x64) off2,
    broadcastTo_1b_ab_apply, shapeCast_a_1a_apply, shapeCast_self]
  exact congrArg (max _) Ideal.ofBits_zero_f32

-- 10 · 5000 = 50000.
theorem row_lt (t : Fin grid2.N) (p : Fin 5000) : t.val * 5000 + p.val < 50000 := by
  have ht : t.val < 10 := lt_of_lt_of_eq t.isLt N_2
  have hp : p.val < 5000 := p.isLt
  omega

theorem div_lt (i : S50000x64.Idx) : (i 0).val / 5000 < grid2.N := by
  rw [N_2]; have := idx2_lt0 i; omega

-- Block t of the rows starts at row 5000 t, column 0.
theorem emb_rows {ix : Fin 2 → Nat} {inb} (t : Fin grid2.N) (h : ix 0 = t.val ∧ ix 1 = 0) (p : Fin 5000) (j : Fin 64) :
    (Rect.unit (s := S50000x64) (fun a => ix a * S5000x64.size a) S5000x64.size inb).emb (ix2 p j)
      = ix2 (⟨t.val * 5000 + p.val, row_lt t p⟩ : Fin 50000) j :=
  funext fun a => Fin.ext <| by
    obtain ⟨h0, h1⟩ := h
    match a with
    | ⟨0, _⟩ => show ix 0 * 5000 + 1 * p.val = t.val * 5000 + p.val; omega
    | ⟨1, _⟩ => show ix 1 * 64 + 1 * j.val = j.val; omega

-- Row n lies in block n / 5000.
theorem cover_rows {F : Fin grid2.N → Bool} {S : Fin grid2.N → Finset S50000x64.Idx} {ix : Fin grid2.N → Fin 2 → Nat}
    {inb : ∀ t a, ix t a * S5000x64.size a + S5000x64.size a ≤ S50000x64.size a} (hF : ∀ t, F t = true) (hS : ∀ t, S t = (Rect.unit (s := S50000x64) (fun a => ix t a * S5000x64.size a) S5000x64.size (inb t)).set)
    (h : ∀ t, ix t 0 = t.val ∧ ix t 1 = 0) (i : S50000x64.Idx) : ∃ t, F t = true ∧ i ∈ S t :=
  ⟨⟨_, div_lt i⟩, hF _, hS _ ▸ Rect.mem_set_unit.2 fun a => by
    obtain ⟨h0, h1⟩ := h ⟨_, div_lt i⟩
    have := idx2_lt0 i
    have := idx2_lt1 i
    match a with
    | ⟨0, _⟩ => show ix _ 0 * 5000 ≤ (i 0).val ∧ (i 0).val < ix _ 0 * 5000 + 5000; rw [h0]; show (i 0).val / 5000 * 5000 ≤ _ ∧ _ < (i 0).val / 5000 * 5000 + 5000; omega
    | ⟨1, _⟩ => show ix _ 1 * 64 ≤ (i 1).val ∧ (i 1).val < ix _ 1 * 64 + 64; omega⟩

-- The output's and the aggregate's blocks are block t of the rows; each per-feature operand's block starts at 0.
abbrev Lies (t : Fin grid2.N) (i6 i0 : Fin 2 → Nat) (i1 : Fin 1 → Nat) (i2 i3 : Fin 2 → Nat) (i4 i5 : Fin 1 → Nat) : Prop :=
  (i6 0 = t.val ∧ i6 1 = 0) ∧ (i0 0 = t.val ∧ i0 1 = 0) ∧ (∀ a, i1 a * S64.size a = 0) ∧ (∀ a, i2 a * S1x64.size a = 0)
    ∧ (∀ a, i3 a * S1x64.size a = 0) ∧ (∀ a, i4 a * S64.size a = 0) ∧ (∀ a, i5 a * S64.size a = 0)

-- On blocks so placed the body computes the formula at block t's own rows.
theorem norm_block {agg : Cert.KMath.A Cert.ReferenceIdeal.S50000x64} {b : Cert.KMath.A Cert.ReferenceIdeal.S64}
    {mu var : Cert.KMath.A Cert.ReferenceIdeal.S1x64} {g bt : Cert.KMath.A Cert.ReferenceIdeal.S64}
    {i6 i0 : Fin 2 → Nat} {i1 : Fin 1 → Nat} {i2 i3 : Fin 2 → Nat} {i4 i5 : Fin 1 → Nat} {n6 n0 n1 n2 n3 n4 n5} (t : Fin grid2.N)
    (h : Lies t i6 i0 i1 i2 i3 i4 i5) (y : S5000x64.Idx) :
    out2_6 (F := Ideal) (View.ld (Val := Elt Ideal) agg (Rect.unit (s := S50000x64) (fun a => i0 a * S5000x64.size a) S5000x64.size n0))
        (View.ld (Val := Elt Ideal) b (Rect.unit (s := S64) (fun a => i1 a * S64.size a) S64.size n1))
        (View.ld (Val := Elt Ideal) mu (Rect.unit (s := S1x64) (fun a => i2 a * S1x64.size a) S1x64.size n2))
        (View.ld (Val := Elt Ideal) var (Rect.unit (s := S1x64) (fun a => i3 a * S1x64.size a) S1x64.size n3))
        (View.ld (Val := Elt Ideal) g (Rect.unit (s := S64) (fun a => i4 a * S64.size a) S64.size n4))
        (View.ld (Val := Elt Ideal) bt (Rect.unit (s := S64) (fun a => i5 a * S64.size a) S64.size n5)) y
      = Cert.KMath.normReluK agg b mu var g bt ((Rect.unit (s := S50000x64) (fun a => i6 a * S5000x64.size a) S5000x64.size n6).emb y) := by
  obtain ⟨e6, e0, z1, z2, z3, z4, z5⟩ := h
  obtain ⟨p, j, rfl⟩ : ∃ (p : Fin 5000) (j : Fin 64), y = ix2 p j := ⟨y 0, y 1, eq_ix2 y⟩
  rw [View.ld_unit_zero (funext z1), View.ld_unit_zero (funext z2), View.ld_unit_zero (funext z3), View.ld_unit_zero (funext z4),
    View.ld_unit_zero (funext z5), out_apply, emb_rows t e6, normReluK_apply]
  exact congrArg (fun z => max (g (ix1 j) * ((z + b (ix1 j)) - mu (ix2 (0 : Fin 1) j)) * Ideal.rsqrt (var (ix2 (0 : Fin 1) j) + Cert.KMath.epsBN) + bt (ix1 j)) 0)
    (congrArg agg (emb_rows t e0 p j))

theorem idx2 : ∀ t : Fin grid2.N,
    Lies t (win2_6.index t) (win2_0.index t) (win2_1.index t) (win2_2.index t) (win2_3.index t) (win2_4.index t) (win2_5.index t) := by
  decide +kernel

theorem out2 (V : Entry) (c : Dev nD) :
    (dat2 (F := Ideal) V c).arrAt 6 cfg2.N = Cert.KMath.normReluK (V c main_v44) (V c main_arg4) (V c main_v47) (V c main_v51) (V c main_arg5) (V c main_arg6) :=
  (dat2 (F := Ideal) V c).arrAt_eq_of_cover 6 _
    (fun t _ => funext fun y => (congrFun (after2_6 V c t) _).trans (norm_block t (idx2 t) y))
    (cover_rows flush2_6 (fun _ => View.set_slice_whole main_v52 _) fun t => (idx2 t).1)

theorem idx5 : ∀ t : Fin grid5.N,
    Lies t (win5_6.index t) (win5_0.index t) (win5_1.index t) (win5_2.index t) (win5_3.index t) (win5_4.index t) (win5_5.index t) := by
  decide +kernel

theorem out5 (V : Entry) (c : Dev nD) :
    (dat5 (F := Ideal) V c).arrAt 6 cfg5.N = Cert.KMath.normReluK (V c main_v66) (V c main_arg8) (V c main_v69) (V c main_v73) (V c main_arg9) (V c main_arg10) :=
  (dat5 (F := Ideal) V c).arrAt_eq_of_cover 6 _
    (fun t _ => funext fun y => (congrFun (after5_6 V c t) _).trans (norm_block t (idx5 t) y))
    (cover_rows flush5_6 (fun _ => View.set_slice_whole main_v74 _) fun t => (idx5 t).1)

theorem idx8 : ∀ t : Fin grid8.N,
    Lies t (win8_6.index t) (win8_0.index t) (win8_1.index t) (win8_2.index t) (win8_3.index t) (win8_4.index t) (win8_5.index t) := by
  decide +kernel

theorem out8 (V : Entry) (c : Dev nD) :
    (dat8 (F := Ideal) V c).arrAt 6 cfg8.N = Cert.KMath.normReluK (V c main_v88) (V c main_arg12) (V c main_v91) (V c main_v95) (V c main_arg13) (V c main_arg14) :=
  (dat8 (F := Ideal) V c).arrAt_eq_of_cover 6 _
    (fun t _ => funext fun y => (congrFun (after8_6 V c t) _).trans (norm_block t (idx8 t) y))
    (cover_rows flush8_6 (fun _ => View.set_slice_whole main_v96 _) fun t => (idx8 t).1)

theorem idx11 : ∀ t : Fin grid11.N,
    Lies t (win11_6.index t) (win11_0.index t) (win11_1.index t) (win11_2.index t) (win11_3.index t) (win11_4.index t) (win11_5.index t) := by
  decide +kernel

theorem out11 (V : Entry) (c : Dev nD) :
    (dat11 (F := Ideal) V c).arrAt 6 cfg11.N = Cert.KMath.normReluK (V c main_v110) (V c main_arg16) (V c main_v113) (V c main_v117) (V c main_arg17) (V c main_arg18) :=
  (dat11 (F := Ideal) V c).arrAt_eq_of_cover 6 _
    (fun t _ => funext fun y => (congrFun (after11_6 V c t) _).trans (norm_block t (idx11 t) y))
    (cover_rows flush11_6 (fun _ => View.set_slice_whole main_v118 _) fun t => (idx11 t).1)

end Cert.RegBN

end
-- ==== Proof.RegPool.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.Lib.ValueIdx
import Idealize.ShloMosaic.Lib.Pipeline.Value
import Idealize.ShloMosaic.Lib.Tactic
import Idealize.ShloMosaic.PureOps.Ideal.Laws

noncomputable section

namespace Cert.RegPool

open Idealize.ShloMosaic Idealize.ShloMosaic.TcCoe Idealize.SL.Sem Idealize.ShloMosaic.ValueIdx Cert.KernelIdeal Cert.KernelIdeal.Gen
open scoped BigOperators

abbrev Entry : Type := (c : Dev nD) → (b : Ref sig .tc) → Buf (Elt Ideal) ((c : Thread nD τ).loc b)

abbrev D : DotDims S5000x64 S5000x64 S64x64 := dot_S5000x64_S5000x64_S64x64_0_0_1_1_n_n

-- Both operands are contracted over their rows, so the update adds the sum over the block's rows.
theorem update_apply (oh : Vec Ideal S5000x64 .bf16) (x : Vec Ideal S5000x64 .f32) (acc : Vec Ideal S64x64 .f32) (p q : Fin 64) :
    k12_pay2 (F := Ideal) oh x acc (ix2 p q) = acc (ix2 p q) + ∑ n : Fin 5000, oh (ix2 n p) * x (ix2 n q) := by
  unfold k12_pay2
  refine (addf_apply _ _ _).trans (congrArg₂ (· + ·) (congrFun (shapeCast_self acc _) _) ?_)
  show FloatOps.matmul D none _ _ _ _ = _
  rw [Ideal.matmul_constant_zero_apply, ← Equiv.sum_comp (contrEquiv1 D 5000 rfl rfl).symm]
  refine Finset.sum_congr rfl fun k _ => ?_
  have hk := contrEquiv1_symm_val D 5000 rfl rfl k
  rw [show D.lhsIdx (ix2 p q) ((contrEquiv1 D 5000 rfl rfl).symm k) = ix2 k p from
      Shape.idx_ext₂ ((D.lhsIdx_val_of_single rfl _ _).trans hk) rfl,
    show D.rhsIdx (ix2 p q) ((contrEquiv1 D 5000 rfl rfl).symm k) = ix2 k q from
      Shape.idx_ext₂ ((D.rhsIdx_val_of_single rfl _ _).trans hk) rfl, shapeCast_self, shapeCast_self]
  rfl

def term (oh : Vec Ideal S50000x64 .bf16) (x : Vec Ideal S50000x64 .f32) (p q : Fin 64) (m : ℕ) : EReal :=
  if h : m < 50000 then oh (ix2 ⟨m, h⟩ p) * x (ix2 ⟨m, h⟩ q) else 0

def partialPool (oh : Vec Ideal S50000x64 .bf16) (x : Vec Ideal S50000x64 .f32) (n : ℕ) : Vec Ideal S64x64 .f32 :=
  fun i => ∑ m ∈ Finset.range (5000 * n), term oh x (i 0) (i 1) m

-- The rows of block t are the next 5000 terms of the sum.
theorem partialPool_succ (oh : Vec Ideal S50000x64 .bf16) (x : Vec Ideal S50000x64 .f32)
    (a : Vec Ideal S5000x64 .bf16) (b : Vec Ideal S5000x64 .f32) (t : ℕ) (ht : t < 10)
    (ha : ∀ (r : Fin 5000) (p : Fin 64) (h : 5000 * t + r.val < 50000), a (ix2 r p) = oh (ix2 ⟨5000 * t + r.val, h⟩ p))
    (hb : ∀ (r : Fin 5000) (p : Fin 64) (h : 5000 * t + r.val < 50000), b (ix2 r p) = x (ix2 ⟨5000 * t + r.val, h⟩ p))
    (p q : Fin 64) :
    partialPool oh x t (ix2 p q) + ∑ r : Fin 5000, a (ix2 r p) * b (ix2 r q) = partialPool oh x (t + 1) (ix2 p q) := by
  show ∑ m ∈ Finset.range (5000 * t), term oh x p q m + _ = ∑ m ∈ Finset.range (5000 * (t + 1)), term oh x p q m
  rw [Nat.mul_succ, Finset.sum_range_add, Finset.sum_range fun s => term oh x p q (5000 * t + s)]
  refine congrArg (HAdd.hAdd _) (Finset.sum_congr rfl fun r _ => ?_)
  have h : 5000 * t + r.val < 50000 := by have := r.isLt; omega
  unfold term
  rw [dif_pos h, ha r p h, hb r q h]

theorem partialPool_last (oh : Vec Ideal S50000x64 .bf16) (x : Vec Ideal S50000x64 .f32) :
    partialPool oh x 10 = Cert.KMath.poolK oh x := by
  funext i
  show ∑ m ∈ Finset.range 50000, term oh x (i 0) (i 1) m = ∑ n : Fin 50000, oh (ix2 n (i 0)) * x (ix2 n (i 1))
  rw [Finset.sum_range]
  exact Finset.sum_congr rfl fun n _ => dif_pos n.isLt

theorem hz : (![0, 0] : Fin 2 → Nat) = fun _ => 0 := funext fun a => by fin_cases a <;> rfl

section Pieces
variable {F : FTy → Type} [FloatOps F] (c : Dev nD) (i : grid12.Coords) (a1 : Memref sig .tc .vmem S5000x64 .bf16) (h1 : a1.IsWhole)
  (a2 : Memref sig .tc .vmem S5000x64 .f32) (h2 : a2.IsWhole) (a3 : Memref sig .tc .vmem S64x64 .f32) (h3 : a3.IsWhole)
  (x0 : Vec F S5000x64 .bf16) (x1 : Vec F S5000x64 .f32)

theorem out_B (hc : ¬cond12_0 i) (xo : Vec F S64x64 .f32) : out12_B_2 c i a1 h1 a2 h2 a3 h3 hc x0 x1 xo = k12_pay2 x0 x1 xo := by
  unfold out12_B_2
  rw [View.read_writes_eq_canon _ _ _ (cover12_B_2 c i a1 h1 a2 h2 a3 h3 hc x0 x1 xo)]
  unfold kernelRun12_B
  dsimp only
  sl_unfold_words
  rw [View.canon_unit_zero (S := S64x64) hz]
  simp only [View.readAt_eq_ld, h1.read_unread, h2.read_unread, h3.read_unread, View.ld_unit_zero (S := S5000x64) hz,
    View.ld_unit_zero (S := S64x64) hz]

theorem out_A (hc : cond12_0 i) : out12_A_2 c i a1 h1 a2 h2 a3 h3 hc x0 x1 = k12_pay2 x0 x1 (k12_pay1 (F := F)) := by
  unfold out12_A_2
  rw [View.read_writes_eq_canon _ _ _ (cover12_A_2 c i a1 h1 a2 h2 a3 h3 hc x0 x1)]
  unfold kernelRun12_A
  dsimp only
  sl_unfold_words
  rw [View.canon_cons_unit_zero (S := S64x64) hz, View.readCov_unit_zero (S := S64x64) _ hz]
  simp only [View.readAt_eq_ld, h1.read_unread, h2.read_unread, View.ld_unit_zero (S := S5000x64) hz]

end Pieces

theorem idx_facts : ∀ t : Fin cfg12.N, win12_0.index t (0 : Fin 2) = t.val ∧ win12_1.index t (0 : Fin 2) = t.val :=
  (by decide +kernel : ∀ t : Fin grid12.N, _)

-- In block t of 5000 rows, row r is row 5000 t + r of the array; at block index zero a column is itself.
theorem blk_row {a t : ℕ} (e : a = t) (r : ℕ) : a * 5000 + 1 * r = 5000 * t + r := by subst e; omega

theorem off0 (s k : ℕ) : 0 * s + 1 * k = k := by omega

-- One point adds its block's rows to the sum.
theorem step (V : Entry) (c : Dev nD) (t : Fin cfg12.N) :
    k12_pay2 (F := Ideal) (iblk12 V c 0 t) (iblk12 V c 1 t) (partialPool (V c main_v125) (V c main_v118) t.val)
      = partialPool (V c main_v125) (V c main_v118) (t.val + 1) :=
  funext fun i => by
    obtain ⟨p, q, rfl⟩ : ∃ p q, i = ix2 p q := ⟨i 0, i 1, eq_ix2 i⟩
    rw [update_apply]
    exact partialPool_succ _ _ _ _ t.val (lt_of_lt_of_eq t.isLt N_12)
      (fun r p _ => congrArg (V c main_v125) (Shape.idx_ext₂ (blk_row (idx_facts t).1 r) (off0 64 p)))
      (fun r p _ => congrArg (V c main_v118) (Shape.idx_ext₂ (blk_row (idx_facts t).2 r) (off0 64 p))) p q

theorem outsAt_eq (V : Entry) (c : Dev nD) :
    ∀ (n : ℕ) (h : n < cfg12.N), outsAt12 (F := Ideal) V c n h = partialPool (V c main_v125) (V c main_v118) (n + 1)
  | 0, h => by
    rw [outsAt12_A V c ⟨0, h⟩ rfl, out_A, show k12_pay1 (F := Ideal) = partialPool (V c main_v125) (V c main_v118) 0 from
      funext fun _ => Ideal.ofBits_zero_f32.trans (Finset.sum_range_zero _).symm]
    exact step V c ⟨0, h⟩
  | n + 1, h => by
    rw [outsAt12_B V c ⟨n + 1, h⟩ (by have := lt_of_lt_of_eq h N_12; show ¬(n + 1) % 10 = 0; omega), out_B]
    show k12_pay2 _ _ (outsAt12 (F := Ideal) V c n _) = _
    rw [outsAt_eq V c n]
    exact step V c ⟨n + 1, h⟩

abbrev t9 : Fin cfg12.N := ⟨9, by rw [show cfg12.N = 10 from N_12]; decide⟩

-- For reading the output's one block as its whole array.
theorem hz12 : ∀ a : Fin 2, win12_2.index t9 a * main_v128.ty.shape.size a = 0 := by decide +kernel

theorem flushed_eq (V : Entry) (c : Dev nD) (t : Fin cfg12.N) (hf : (cfg12.win 2).flush t = true) :
    (dat12 (F := Ideal) V c).flushed 2 t
      = ((cfg12.win 2).blk t).view.read (Elt Ideal) (Cert.KMath.poolK (V c main_v125) (V c main_v118)) := by
  obtain rfl : t = t9 := Fin.ext (by have := (flush12_2 t).mp hf; have := lt_of_lt_of_eq t.isLt N_12; show t.val = 9; omega)
  show (cfg12.win 2).cut (grid12.coords t9) ((dat12 (F := Ideal) V c).after 2 t9) = _
  rw [after12_2, outsAt_eq, partialPool_last]
  exact (Memref.read_access_unit_zero (Elt Ideal) main_v128 (funext hz12) (fun a => by rw [hz12 a, Nat.zero_add]) _).symm

theorem out12 (V : Entry) (c : Dev nD) :
    (dat12 (F := Ideal) V c).arrAt 2 cfg12.N = Cert.KMath.poolK (V c main_v125) (V c main_v118) :=
  (dat12 (F := Ideal) V c).arrAt_eq_of_cover 2 (Cert.KMath.poolK (V c main_v125) (V c main_v118)) (flushed_eq V c) fun i =>
    ⟨t9, (flush12_2 t9).mpr rfl, by
      show i ∈ ((View.whole main_v128).slice (win12_2.rect t9)).set
      rw [View.set_slice_whole]
      exact View.mem_set_unit_zero (funext hz12) _ i⟩

end Cert.RegPool

end
-- ==== Proof.RegHead.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.PureOps.Ideal.Laws
import Idealize.ShloMosaic.Lib.ValueIdx
import Idealize.ShloMosaic.Lib.Pipeline.Value

noncomputable section

namespace Cert.RegHead

open Idealize.ShloMosaic Idealize.ShloMosaic.TcCoe Idealize.ShloMosaic.ValueIdx Idealize.SL.Sem Cert.KernelIdeal Cert.KernelIdeal.Gen
open Idealize.ShloMosaic.Pipeline (Dat)

abbrev Entry : Type := (c : Dev nD) → (b : Ref sig .tc) → Buf (Elt Ideal) ((c : Thread nD τ).loc b)

theorem matmul_zero_eq_dot {sl sr so : Shape} {φ₁ φ₂ : FTy} (d : DotDims sl sr so) (prec : Option ContractPrecision)
    (sched : HostSchedule) (lhs : FVec Ideal sl φ₁) (rhs : FVec Ideal sr φ₂) :
    FloatOps.matmul d prec lhs rhs (constant (F := Ideal) so .f32 0x00000000#32) = FloatOps.dotGeneral d prec sched lhs rhs := by
  funext j
  rw [Ideal.matmul_constant_zero_apply, Ideal.dotGeneral_apply]

def hiddenK (p : FVec Ideal S64x64 .f32) (fw1 : FVec Ideal S128x64 .f32) (fb1 : FVec Ideal S128 .f32) : FVec Ideal S64x128 .f32 :=
  maximumf
    (addf
      (matmul dot_S64x64_S64x128_S64x128_1_0_0_1_n_n none
        (truncf .bf16 (shapeCast S64x64 p shapeCasts_S64x64_S64x64) bitsLt_bf16_f32)
        (transpose S64x128 [1, 0] (truncf .bf16 fw1 bitsLt_bf16_f32) transposes_S128x64_p1_0_S64x128)
        (constant S64x128 .f32 0x00000000#32))
      (broadcastTo S64x128 (shapeCast S1x128 fb1 shapeCasts_S128_S1x128) broadcasts_S1x128_S64x128))
    (broadcast S64x128 (Scalar.ofBits .f32 0x00000000#32))

theorem pay_hidden (p : FVec Ideal S64x64 .f32) (fw1 : FVec Ideal S128x64 .f32) (fb1 : FVec Ideal S128 .f32)
    (fw2 : FVec Ideal S10x128 .f32) (fb2 : FVec Ideal S10 .f32) :
    k13_pay1 (F := Ideal) p fw1 fb1 fw2 fb2 =
      addf (matmul dot_S64x128_S128x10_S64x10_1_0_0_1_n_n none (truncf .bf16 (hiddenK p fw1 fb1) bitsLt_bf16_f32)
          (transpose S128x10 [1, 0] (truncf .bf16 fw2 bitsLt_bf16_f32) transposes_S10x128_p1_0_S128x10) (constant S64x10 .f32 0x00000000#32))
        (broadcastTo S64x10 (shapeCast S1x10 fb2 shapeCasts_S10_S1x10) broadcasts_S1x10_S64x10) := rfl

def hiddenR (p : FVec Ideal S64x64 .f32) (fw1 : FVec Ideal S128x64 .f32) (fb1 : FVec Ideal S128 .f32) : FVec Ideal S64x128 .f32 :=
  maximumf
    (addf (Host.dotGeneral Cert.ReferenceIdeal.dot_S64x64_S64x128_S64x128_1_0_0_1_n_n none p
        (transpose Cert.ReferenceIdeal.S64x128 [1, 0] fw1 Cert.ReferenceIdeal.Facts₀.transposes_S128x64_S64x128_1_0))
      (broadcastInDim Cert.ReferenceIdeal.S64x128 ![0, 1] Cert.ReferenceIdeal.Facts₀.bcast_S1x128_S64x128_0_1
        (broadcastInDim Cert.ReferenceIdeal.S1x128 ![1] Cert.ReferenceIdeal.Facts₀.bcast_S128_S1x128_1 fb1)))
    (broadcastInDim Cert.ReferenceIdeal.S64x128 ![] Cert.ReferenceIdeal.Facts₀.bcast_S_S64x128
      (constant (F := Ideal) Cert.ReferenceIdeal.S_ .f32 0x00000000#32))

theorem head_hidden (p : FVec Ideal S64x64 .f32) (fw1 : FVec Ideal S128x64 .f32) (fb1 : FVec Ideal S128 .f32)
    (fw2 : FVec Ideal S10x128 .f32) (fb2 : FVec Ideal S10 .f32) :
    Cert.Stages.head (F := Ideal) p fw1 fb1 fw2 fb2 =
      addf (Host.dotGeneral Cert.ReferenceIdeal.dot_S64x128_S128x10_S64x10_1_0_0_1_n_n none (hiddenR p fw1 fb1)
          (transpose Cert.ReferenceIdeal.S128x10 [1, 0] fw2 Cert.ReferenceIdeal.Facts₀.transposes_S10x128_S128x10_1_0))
        (broadcastInDim Cert.ReferenceIdeal.S64x10 ![0, 1] Cert.ReferenceIdeal.Facts₀.bcast_S1x10_S64x10_0_1
          (broadcastInDim Cert.ReferenceIdeal.S1x10 ![1] Cert.ReferenceIdeal.Facts₀.bcast_S10_S1x10_1 fb2)) := rfl

theorem rowK_apply {m n : Nat} (v : FVec Ideal ⟨1, ![n]⟩ .f32)
    (h1 : (⟨1, ![n]⟩ : Shape).ShapeCasts ⟨2, ![1, n]⟩) (h2 : (⟨2, ![1, n]⟩ : Shape).Broadcasts ⟨2, ![m, n]⟩) (hn : n ≠ 1)
    (a : Fin m) (b : Fin n) :
    broadcastTo ⟨2, ![m, n]⟩ (shapeCast ⟨2, ![1, n]⟩ v h1) h2 (ix2 a b) = v (ix1 b) := by
  refine (broadcastTo_apply _ h2 (ix2 a b) (ix2 (0 : Fin 1) b) fun x => ?_).trans ?_
  · match x with
    | ⟨0, _⟩ => rfl
    | ⟨1, _⟩ => show b.val = if n = 1 then 0 else b.val; rw [if_neg hn]
  · refine (shapeCast_addUnit_apply ![n] v h1 (ix2 (0 : Fin 1) b)).trans (congrArg v ?_)
    funext d; match d with | ⟨0, _⟩ => rfl

theorem rowR_apply {m n : Nat} (v : FVec Ideal ⟨1, ![n]⟩ .f32)
    (h1 : (⟨1, ![n]⟩ : Shape).BroadcastsInDim ⟨2, ![1, n]⟩ ![1]) (h2 : (⟨2, ![1, n]⟩ : Shape).BroadcastsInDim ⟨2, ![m, n]⟩ ![0, 1]) (hn : n ≠ 1)
    (a : Fin m) (b : Fin n) :
    broadcastInDim ⟨2, ![m, n]⟩ ![0, 1] h2 (broadcastInDim ⟨2, ![1, n]⟩ ![1] h1 v) (ix2 a b) = v (ix1 b) := by
  refine (broadcastInDim_apply _ h2 _ (ix2 a b) (ix2 (0 : Fin 1) b) fun x => ?_).trans ?_
  · match x with
    | ⟨0, _⟩ => rfl
    | ⟨1, _⟩ => show b.val = if n = 1 then 0 else b.val; rw [if_neg hn]
  · refine (broadcastInDim_apply _ h1 v (ix2 (0 : Fin 1) b) (ix1 b) fun x => ?_)
    match x with
    | ⟨0, _⟩ => show b.val = if n = 1 then 0 else b.val; rw [if_neg hn]

theorem hidden_eq (p : FVec Ideal S64x64 .f32) (fw1 : FVec Ideal S128x64 .f32) (fb1 : FVec Ideal S128 .f32) :
    hiddenK p fw1 fb1 = hiddenR p fw1 fb1 := by
  funext i
  obtain ⟨a, b, rfl⟩ : ∃ (a : Fin 64) (b : Fin 128), i = ix2 a b := ⟨i 0, i 1, eq_ix2 i⟩
  unfold hiddenK hiddenR
  refine congrArg₂ max (congrArg₂ (· + ·) ?_ ?_) ?_
  · rw [shapeCast_self]
    exact congrFun (matmul_zero_eq_dot _ _ .single _ _) (ix2 a b)
  · exact (rowK_apply fb1 _ _ (by decide) a b).trans (rowR_apply fb1 _ _ (by decide) a b).symm
  · exact Eq.symm ((broadcastInDim_apply _ _ (constant (F := Ideal) Cert.ReferenceIdeal.S_ .f32 0x00000000#32) (ix2 a b) ix0 fun x => x.elim0).trans rfl)

theorem pay_eq (p : FVec Ideal S64x64 .f32) (fw1 : FVec Ideal S128x64 .f32) (fb1 : FVec Ideal S128 .f32)
    (fw2 : FVec Ideal S10x128 .f32) (fb2 : FVec Ideal S10 .f32) :
    k13_pay1 (F := Ideal) p fw1 fb1 fw2 fb2 = Cert.Stages.head (F := Ideal) p fw1 fb1 fw2 fb2 := by
  rw [pay_hidden, head_hidden, hidden_eq]
  funext i
  obtain ⟨a, b, rfl⟩ : ∃ (a : Fin 64) (b : Fin 10), i = ix2 a b := ⟨i 0, i 1, eq_ix2 i⟩
  refine congrArg₂ (· + ·) ?_ ?_
  · exact congrFun (matmul_zero_eq_dot _ _ .single _ _) (ix2 a b)
  · exact (rowK_apply fb2 _ _ (by decide) a b).trans (rowR_apply fb2 _ _ (by decide) a b).symm

theorem hz2 : (![0, 0] : Fin 2 → Nat) = fun _ => 0 := funext fun a => by
  match a with | ⟨0, _⟩ => rfl | ⟨1, _⟩ => rfl
theorem hz1 : (![0] : Fin 1 → Nat) = fun _ => 0 := funext fun a => by
  match a with | ⟨0, _⟩ => rfl

theorem out_eq (x0 : Vec Ideal S64x64 .f32) (x1 : Vec Ideal S128x64 .f32) (x2 : Vec Ideal S128 .f32) (x3 : Vec Ideal S10x128 .f32)
    (x4 : Vec Ideal S10 .f32) : out13_5 (F := Ideal) x0 x1 x2 x3 x4 = k13_pay1 (F := Ideal) x0 x1 x2 x3 x4 := by
  unfold out13_5
  rw [View.canon_unit_zero hz2]
  simp only [View.ld_unit_zero (S := S64x64) hz2, View.ld_unit_zero (S := S128x64) hz2, View.ld_unit_zero (S := S128) hz1,
    View.ld_unit_zero (S := S10x128) hz2, View.ld_unit_zero (S := S10) hz1]

theorem iblk_0 (V : Entry) (c : Dev nD) (t : Fin cfg13.N) : (iblk13 V c 0 t : Vec Ideal S64x64 .f32) = V c main_v132 := by
  obtain rfl := fin_N13 t
  have hz' : (fun a => win13_0.index t13_0 a * main_v132.ty.shape.size a) = fun _ => 0 := funext fun a => by
    match a with | ⟨0, _⟩ => exact (by decide : win13_0.index t13_0 0 * main_v132.ty.shape.size 0 = 0) | ⟨1, _⟩ => exact (by decide : win13_0.index t13_0 1 * main_v132.ty.shape.size 1 = 0)
  exact Memref.read_access_unit_zero (Elt Ideal) main_v132 hz' (fun a => by rw [congrFun hz' a]; simp) (V c main_v132)

theorem iblk_1 (V : Entry) (c : Dev nD) (t : Fin cfg13.N) : (iblk13 V c 1 t : Vec Ideal S128x64 .f32) = V c main_arg19 := by
  obtain rfl := fin_N13 t
  have hz' : (fun a => win13_1.index t13_0 a * main_arg19.ty.shape.size a) = fun _ => 0 := funext fun a => by
    match a with | ⟨0, _⟩ => exact (by decide : win13_1.index t13_0 0 * main_arg19.ty.shape.size 0 = 0) | ⟨1, _⟩ => exact (by decide : win13_1.index t13_0 1 * main_arg19.ty.shape.size 1 = 0)
  exact Memref.read_access_unit_zero (Elt Ideal) main_arg19 hz' (fun a => by rw [congrFun hz' a]; simp) (V c main_arg19)

theorem iblk_2 (V : Entry) (c : Dev nD) (t : Fin cfg13.N) : (iblk13 V c 2 t : Vec Ideal S128 .f32) = V c main_arg20 := by
  obtain rfl := fin_N13 t
  have hz' : (fun a => win13_2.index t13_0 a * main_arg20.ty.shape.size a) = fun _ => 0 := funext fun a => by
    match a with | ⟨0, _⟩ => exact (by decide : win13_2.index t13_0 0 * main_arg20.ty.shape.size 0 = 0)
  exact Memref.read_access_unit_zero (Elt Ideal) main_arg20 hz' (fun a => by rw [congrFun hz' a]; simp) (V c main_arg20)

theorem iblk_3 (V : Entry) (c : Dev nD) (t : Fin cfg13.N) : (iblk13 V c 3 t : Vec Ideal S10x128 .f32) = V c main_arg21 := by
  obtain rfl := fin_N13 t
  have hz' : (fun a => win13_3.index t13_0 a * main_arg21.ty.shape.size a) = fun _ => 0 := funext fun a => by
    match a with | ⟨0, _⟩ => exact (by decide : win13_3.index t13_0 0 * main_arg21.ty.shape.size 0 = 0) | ⟨1, _⟩ => exact (by decide : win13_3.index t13_0 1 * main_arg21.ty.shape.size 1 = 0)
  exact Memref.read_access_unit_zero (Elt Ideal) main_arg21 hz' (fun a => by rw [congrFun hz' a]; simp) (V c main_arg21)

theorem iblk_4 (V : Entry) (c : Dev nD) (t : Fin cfg13.N) : (iblk13 V c 4 t : Vec Ideal S10 .f32) = V c main_arg22 := by
  obtain rfl := fin_N13 t
  have hz' : (fun a => win13_4.index t13_0 a * main_arg22.ty.shape.size a) = fun _ => 0 := funext fun a => by
    match a with | ⟨0, _⟩ => exact (by decide : win13_4.index t13_0 0 * main_arg22.ty.shape.size 0 = 0)
  exact Memref.read_access_unit_zero (Elt Ideal) main_arg22 hz' (fun a => by rw [congrFun hz' a]; simp) (V c main_arg22)

theorem flushed_eq (V : Entry) (c : Dev nD) (t : Fin cfg13.N) :
    (dat13 (F := Ideal) V c).flushed 5 t = ((cfg13.win 5).blk t).view.read (Elt Ideal)
      (Cert.Stages.head (F := Ideal) (V c main_v132) (V c main_arg19) (V c main_arg20) (V c main_arg21) (V c main_arg22)) := by
  show (cfg13.win 5).cut (grid13.coords t) ((dat13 (F := Ideal) V c).after 5 t) = _
  rw [after13_5, iblk_0, iblk_1, iblk_2, iblk_3, iblk_4,
    out_eq (V c main_v132) (V c main_arg19) (V c main_arg20) (V c main_arg21) (V c main_arg22),
    pay_eq (V c main_v132) (V c main_arg19) (V c main_arg20) (V c main_arg21) (V c main_arg22)]
  obtain rfl := fin_N13 t
  have hz' : (fun a => win13_5.index t13_0 a * main_v133.ty.shape.size a) = fun _ => 0 := funext fun a => by
    match a with | ⟨0, _⟩ => exact (by decide : win13_5.index t13_0 0 * main_v133.ty.shape.size 0 = 0) | ⟨1, _⟩ => exact (by decide : win13_5.index t13_0 1 * main_v133.ty.shape.size 1 = 0)
  exact (Memref.read_access_unit_zero (Elt Ideal) main_v133 hz' (fun a => by rw [congrFun hz' a]; simp)
    (Cert.Stages.head (F := Ideal) (V c main_v132) (V c main_arg19) (V c main_arg20) (V c main_arg21) (V c main_arg22))).symm

theorem out13 (V : Entry) (c : Dev nD) :
    (dat13 (F := Ideal) V c).arrAt 5 cfg13.N = Cert.Stages.head (F := Ideal) (V c main_v132) (V c main_arg19) (V c main_arg20) (V c main_arg21) (V c main_arg22) :=
  (dat13 (F := Ideal) V c).arrAt_eq_of_cover 5
    (Cert.Stages.head (F := Ideal) (V c main_v132) (V c main_arg19) (V c main_arg20) (V c main_arg21) (V c main_arg22))
    (fun t _ => flushed_eq V c t) fun i =>
    ⟨t13_0, flush13_5 t13_0, by
      show i ∈ ((View.whole main_v133).slice (win13_5.rect t13_0)).set
      rw [View.set_slice_whole, Rect.mem_set_unit]
      intro a
      have h0 : (i 0 : Nat) < 64 := (i 0).isLt
      have h1 : (i 1 : Nat) < 10 := (i 1).isLt
      match a with
      | ⟨0, _⟩ => show win13_5.index t13_0 0 * win13_5.size 0 ≤ (i 0 : Nat) ∧ (i 0 : Nat) < win13_5.index t13_0 0 * win13_5.size 0 + win13_5.xsize (grid13.coords t13_0) 0
                  rw [show win13_5.index t13_0 0 * win13_5.size 0 = 0 from by decide +kernel, show win13_5.xsize (grid13.coords t13_0) 0 = 64 from by decide +kernel]; omega
      | ⟨1, _⟩ => show win13_5.index t13_0 1 * win13_5.size 1 ≤ (i 1 : Nat) ∧ (i 1 : Nat) < win13_5.index t13_0 1 * win13_5.size 1 + win13_5.xsize (grid13.coords t13_0) 1
                  rw [show win13_5.index t13_0 1 * win13_5.size 1 = 0 from by decide +kernel, show win13_5.xsize (grid13.coords t13_0) 1 = 10 from by decide +kernel]; omega⟩

end Cert.RegHead

end
-- ==== Proof.KHost.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import Idealize.ShloMosaic.Lib.StableHlo.Run
import Idealize.ShloMosaic.Lib.StableHlo.Predicate
import Idealize.ShloMosaic.PureOps.Ideal.Laws

noncomputable section

namespace Cert.KHost

open Idealize.ShloMosaic Idealize.ShloMosaic.TcCoe Idealize.SL.Sem Idealize.ShloMosaic.StableHlo Cert.KernelIdeal Cert.KernelIdeal.Gen
open Idealize.ShloMosaic.ValueIdx
open scoped BigOperators

local notation "Vals" => Valuation τ sig (Elt Ideal)
local notation "dr" => Proc.devRef (τ := τ) (sig := sig) Proc.tc

theorem weight_of (V : Vals) :
    after hostOps0_2 V (dr main_v30)
      = mulf (F := Ideal) (φ := .f32)
          (Host.gather Cert.ReferenceIdeal.gather_S50000_S850000x1_S850000_n_0_n_n_0_1_1 (V (dr main_v15))
            (broadcastInDim Cert.ReferenceIdeal.S850000x1 ![0] Cert.ReferenceIdeal.Facts₀.bcast_S850000_S850000x1_0 (Cert.Stages.wrap (F := Ideal) (V (dr main_v3)))))
          (Host.gather Cert.ReferenceIdeal.gather_S50000_S850000x1_S850000_n_0_n_n_0_1_1 (V (dr main_v15))
            (broadcastInDim Cert.ReferenceIdeal.S850000x1 ![0] Cert.ReferenceIdeal.Facts₀.bcast_S850000_S850000x1_0 (Cert.Stages.wrap (F := Ideal) (V (dr main_v6))))) := by
  after_results_simp
  rfl

theorem dinv_of (V : Vals) :
    after hostOps0_1 V (dr main_v15)
      = (select (V (dr main_v12)) (V (dr main_v14))
          (broadcastInDim Cert.ReferenceIdeal.S50000 ![] Cert.ReferenceIdeal.Facts₀.bcast_S_S50000 (id (V (dr main_cst_3)))) : Cert.Stages.TF Ideal Cert.ReferenceIdeal.S50000)
    ∧ after hostOps0_1 V (dr main_v3) = V (dr main_v3)
    ∧ after hostOps0_1 V (dr main_v6) = V (dr main_v6) := by
  refine ⟨?_, ?_, ?_⟩
  · after_results_simp
    rfl
  · after_results_simp
  · after_results_simp

theorem deg_of (W : Vals) :
    after hostOps0 W (dr main_v3) = Cert.Stages.endpoints0 (F := Ideal) (W (dr main_arg1))
    ∧ after hostOps0 W (dr main_v6) = Cert.Stages.endpoints1 (F := Ideal) (W (dr main_arg1))
    ∧ after hostOps0 W (dr main_v12)
        = cmpf (F := Ideal) (φ := .f32) .ogt (Cert.Stages.deg (F := Ideal) (Cert.Stages.endpoints1 (F := Ideal) (W (dr main_arg1))))
            (broadcastInDim Cert.ReferenceIdeal.S50000 ![] Cert.ReferenceIdeal.Facts₀.bcast_S_S50000 (constant (F := Ideal) Cert.ReferenceIdeal.S_ .f32 0x00000000#32))
    ∧ after hostOps0 W (dr main_v14)
        = Host.powf (F := Ideal) (φ := .f32) (Cert.Stages.deg (F := Ideal) (Cert.Stages.endpoints1 (F := Ideal) (W (dr main_arg1))))
            (broadcastInDim Cert.ReferenceIdeal.S50000 ![] Cert.ReferenceIdeal.Facts₀.bcast_S_S50000 (constant (F := Ideal) Cert.ReferenceIdeal.S_ .f32 0xBF000000#32))
    ∧ after hostOps0 W (dr main_cst_3) = constant (F := Ideal) Cert.ReferenceIdeal.S_ .f32 0x00000000#32 := by
  refine ⟨?_, ?_, ?_, ?_, ?_⟩
  · after_results_simp
    rfl
  · after_results_simp
    rfl
  · after_results_simp
    repeat (first
      | rw [nullary_result] | rw [unary_result] | rw [binary_result] | rw [reshape_result]
      | (rw [nullary_result_ne]; rotate_left; decide) | (rw [unary_result_ne]; rotate_left; decide)
      | (rw [binary_result_ne]; rotate_left; decide) | (rw [reshape_result_ne]; rotate_left; decide))
    rfl
  · after_results_simp
    repeat (first
      | rw [nullary_result] | rw [unary_result] | rw [binary_result] | rw [reshape_result]
      | (rw [nullary_result_ne]; rotate_left; decide) | (rw [unary_result_ne]; rotate_left; decide)
      | (rw [binary_result_ne]; rotate_left; decide) | (rw [reshape_result_ne]; rotate_left; decide))
    rfl
  · after_results_simp

theorem graph (W : Vals) :
    after hostOps0_2 (after hostOps0_1 (after hostOps0 W)) (dr main_v3) = Cert.Stages.endpoints0 (F := Ideal) (W (dr main_arg1))
    ∧ after hostOps0_2 (after hostOps0_1 (after hostOps0 W)) (dr main_v6) = Cert.Stages.endpoints1 (F := Ideal) (W (dr main_arg1))
    ∧ after hostOps0_2 (after hostOps0_1 (after hostOps0 W)) (dr main_v30)
        = Cert.Stages.edgeWeight (F := Ideal) (Cert.Stages.endpoints0 (F := Ideal) (W (dr main_arg1))) (Cert.Stages.endpoints1 (F := Ideal) (W (dr main_arg1))) := by
  refine ⟨?_, ?_, ?_⟩
  · after_results_simp
    rfl
  · after_results_simp
    rfl
  · obtain ⟨h3, h6, h12, h14, hc⟩ := deg_of W
    obtain ⟨h15, k3, k6⟩ := dinv_of (after hostOps0 W)
    rw [weight_of, h15, k3, k6, h3, h6, h12, h14, hc]
    rfl
theorem agg1 (W : Vals) :
    after hostOps1 W (dr main_v44) = Cert.Stages.aggregate (F := Ideal) (W (dr main_v3)) (W (dr main_v6)) (W (dr main_v30)) (W (dr main_v31)) := by
  after_results_simp
  rfl
theorem agg4 (W : Vals) :
    after hostOps4 W (dr main_v66) = Cert.Stages.aggregate (F := Ideal) (W (dr main_v3)) (W (dr main_v6)) (W (dr main_v30)) (W (dr main_v53)) := by
  after_results_simp
  rfl
theorem agg7 (W : Vals) :
    after hostOps7 W (dr main_v88) = Cert.Stages.aggregate (F := Ideal) (W (dr main_v3)) (W (dr main_v6)) (W (dr main_v30)) (W (dr main_v75)) := by
  after_results_simp
  rfl
theorem agg10 (W : Vals) :
    after hostOps10 W (dr main_v110) = Cert.Stages.aggregate (F := Ideal) (W (dr main_v3)) (W (dr main_v6)) (W (dr main_v30)) (W (dr main_v97)) := by
  after_results_simp
  rfl
theorem mv2 (W : Vals) :
    after hostOps2 W (dr main_v47) = Cert.KMath.meanK (W (dr main_v45_0))
    ∧ after hostOps2 W (dr main_v51) = Cert.KMath.varK (W (dr main_v45_0)) (W (dr main_v45_1)) := by
  constructor
  · after_results_simp
    rfl
  · after_results_simp
    rfl
theorem mv5 (W : Vals) :
    after hostOps5 W (dr main_v69) = Cert.KMath.meanK (W (dr main_v67_0))
    ∧ after hostOps5 W (dr main_v73) = Cert.KMath.varK (W (dr main_v67_0)) (W (dr main_v67_1)) := by
  constructor
  · after_results_simp
    rfl
  · after_results_simp
    rfl
theorem mv8 (W : Vals) :
    after hostOps8 W (dr main_v91) = Cert.KMath.meanK (W (dr main_v89_0))
    ∧ after hostOps8 W (dr main_v95) = Cert.KMath.varK (W (dr main_v89_0)) (W (dr main_v89_1)) := by
  constructor
  · after_results_simp
    rfl
  · after_results_simp
    rfl
theorem mv11 (W : Vals) :
    after hostOps11 W (dr main_v113) = Cert.KMath.meanK (W (dr main_v111_0))
    ∧ after hostOps11 W (dr main_v117) = Cert.KMath.varK (W (dr main_v111_0)) (W (dr main_v111_1)) := by
  constructor
  · after_results_simp
    rfl
  · after_results_simp
    rfl
theorem oneHot_read (batch : (⟨S50000, .i32⟩ : BufTy).Contents (Elt Ideal)) :
    (uitofp (F := Ideal) .bf16
      (cmpi .eq
        (broadcastInDim S50000x64 ![0, 1] Facts₀.bcast_S50000x1_S50000x64_0_1
          (broadcastInDim S50000x1 ![0] Facts₀.bcast_S50000_S50000x1_0 batch))
        (broadcastInDim S50000x64 ![0, 1] Facts₀.bcast_S1x64_S50000x64_0_1
          (broadcastInDim S1x64 ![1] Facts₀.bcast_S64_S1x64_1 (iotaInDim S64 32 0)))))
      = Cert.KMath.oneHot batch := by
  funext i
  have key : ∀ (p : Fin 50000) (q : Fin 64),
      (uitofp (F := Ideal) .bf16
        (cmpi .eq
          (broadcastInDim S50000x64 ![0, 1] Facts₀.bcast_S50000x1_S50000x64_0_1
            (broadcastInDim S50000x1 ![0] Facts₀.bcast_S50000_S50000x1_0 batch))
          (broadcastInDim S50000x64 ![0, 1] Facts₀.bcast_S1x64_S50000x64_0_1
            (broadcastInDim S1x64 ![1] Facts₀.bcast_S64_S1x64_1 (iotaInDim S64 32 0))))) (Predicate.ij p q)
        = Cert.KMath.oneHot batch (Predicate.ij p q) := by
    intro p q
    show FloatOps.uitofp (F := Ideal) .bf16 (IntOp.cmpi .eq
        (broadcastInDim S50000x64 ![0, 1] Facts₀.bcast_S50000x1_S50000x64_0_1
            (broadcastInDim S50000x1 ![0] Facts₀.bcast_S50000_S50000x1_0 batch) (Predicate.ij p q))
        (broadcastInDim S50000x64 ![0, 1] Facts₀.bcast_S1x64_S50000x64_0_1
            (broadcastInDim S1x64 ![1] Facts₀.bcast_S64_S1x64_1 (iotaInDim S64 32 0)) (Predicate.ij p q)))
      = if batch (ix1 p) = BitVec.ofNat 32 q.val then 1 else 0
    rw [Predicate.bcast_rows, Predicate.bcast_cols, Predicate.iota_apply]
    have hp : Shape.Idx.ofFin p = ix1 p := (Shape.Idx.eq_ofFin (ix1 p)).symm
    rw [hp]
    by_cases h : batch (ix1 p) = BitVec.ofNat 32 q.val
    · rw [if_pos h, Predicate.cmpi_eq_iff.mpr h]
      show (((1#1 : BitVec 1).toNat : ℝ) : EReal) = 1
      norm_num
    · rw [if_neg h, eq_zero_of_ne_one (fun hc => h (Predicate.cmpi_eq_iff.mp hc))]
      show (((0#1 : BitVec 1).toNat : ℝ) : EReal) = 0
      norm_num
  have hi := Predicate.ij_eta i
  rw [← hi]
  exact key (i 0) (i 1)

theorem oh12 (W : Vals) :
    after hostOps12 W (dr main_v125) = Cert.KMath.oneHot (W (dr main_arg2))
    ∧ after hostOps12 W (dr main_v127) = Cert.KMath.countK (W (dr main_arg2)) := by
  constructor
  · after_results_simp
    exact oneHot_read _
  · after_results_simp
    rw [oneHot_read]
    funext g
    have hred : S50000x64.Reduces [0] S64 := by decide
    show Ideal.hostReduceAdd Facts₀.reducesTo_S50000x64_S64_d0 (Cert.KMath.oneHot (W (dr main_arg2))) (Ideal.ofBits .f32 0x00000000#32) g
      = ∑ n : Fin 50000, Cert.KMath.oneHot (W (dr main_arg2)) (ix2 n (g 0))
    rw [Ideal.hostReduceAdd_single _ hred, Ideal.ofBits_zero_f32, zero_add]
    refine Finset.sum_congr rfl fun k _ => ?_
    congr 1
    funext a
    match a with
    | ⟨0, _⟩ => rfl
    | ⟨1, _⟩ => rfl
theorem pooled13 (W : Vals) :
    after hostOps13_2 (after hostOps13_1 (after hostOps13 W)) (dr main_v132)
      = Cert.Stages.graphMeanOf (F := Ideal) (W (dr main_v128)) (W (dr main_v127)) := by
  after_results_simp
  rfl

end Cert.KHost

end
-- ==== Proof.Keep.lean ====
import proofs.«418940_j1529008358070_1_alg».proof.Proof.Gen.KernelIdeal.Frame

noncomputable section

namespace Cert.Keep

open Idealize.ShloMosaic Idealize.ShloMosaic.TcCoe Idealize.SL.Sem Cert.KernelIdeal Cert.KernelIdeal.Gen
open Idealize.ShloMosaic.Pipeline (Dat Cfg)

variable {F : FTy → Type} [FloatOps F]

/-- `W'` holds at every buffer outside `l` what `W` holds there. -/
def Keeps (l : List (Ref sig .tc)) (W W' : Valuation τ sig (Elt F)) : Prop :=
  ∀ b, b ∉ l → W' (Proc.devRef .tc b) = W (Proc.devRef .tc b)

theorem Keeps.trans {l l' : List (Ref sig .tc)} {W W' W'' : Valuation τ sig (Elt F)} (h : Keeps l W W') (h' : Keeps l' W' W'') :
    Keeps (l ++ l') W W'' :=
  fun b hb => (h' b fun e => hb (List.mem_append_right l e)).trans (h b fun e => hb (List.mem_append_left l' e))

/-- A line of operations changes only the buffers its operations write. -/
theorem Keeps.host {ops : List (HloOp τ sig (Elt F))} {l : List (Ref sig .tc)}
    (h : ops.map (·.writes) = l.map fun y => {Proc.devRef .tc y}) (W : Valuation τ sig (Elt F)) : Keeps l W (StableHlo.after ops W) :=
  fun b hb => StableHlo.after_of_forall_not_mem ops W fun op hop hw => by
    obtain ⟨y, hy, e⟩ := List.mem_map.mp (h ▸ List.mem_map_of_mem hop)
    exact hb (Proc.devRef_injective _ (Finset.mem_singleton.mp (e ▸ hw)) ▸ hy)

/-- The arrays behind the output windows among `spec`. -/
def outs {gr W : ℕ} (spec : Fin W → Pipeline.WinSpec sig gr) : List (Ref sig .tc) :=
  ((List.finRange W).filter fun w => (spec w).isOut).map (Pipeline.arrRef spec)

/-- A kernel's region changes only its output arrays: an input array stays as entered, every other buffer is passed by. -/
theorem Keeps.region {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Proc.devRef .tc (Pipeline.arrRef cfg.spec w))) :
    Keeps (outs cfg.spec) W (Pipeline.withArrays cfg.spec c W fun w => dat.arrAt w cfg.N) := fun b hb => by
  by_cases h : ∃ w, Pipeline.arrRef cfg.spec w = b
  · obtain ⟨w, rfl⟩ := h
    rw [Pipeline.withArrays_arr _ hinj, dat.arrAt_in w (Bool.eq_false_iff.mpr fun e =>
      hb (List.mem_map_of_mem (List.mem_filter.mpr ⟨List.mem_finRange w, e⟩))), hA]
  · exact Pipeline.withArrays_of_ne _ c W _ b fun w e => h ⟨w, e⟩

variable (m : (ℓ : Loc nD τ sig) → Buf (Elt F) ℓ) (ρ : Dev nD → PrngReg)

/-- The buffer contents at the run's `k`-th boundary. -/
def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | 22 => W22 m ρ
  | 23 => W23 m ρ
  | 24 => W24 m ρ
  | 25 => W25 m ρ
  | 26 => W26 m ρ
  | 27 => W27 m ρ
  | 28 => W28 m ρ
  | _ => W29 m ρ

/-- What the step from boundary `k` to the next may change: a host stretch's results, a kernel's output arrays. -/
def wr : ℕ → List (Ref sig .tc)
  | 0 => [main_v0, main_v1, main_v2, main_v3, main_v4, main_v5, main_v6, main_cst, main_v7, main_cst_0, main_v8, main_v9, main_v10, main_cst_1, main_v11, main_v12, main_cst_2, main_v13, main_v14, main_cst_3]
  | 1 => [main_call0_v0, main_call0_v1, main_v15]
  | 2 => [main_c, main_v16, main_v17, main_c_4, main_v18, main_v19, main_v20, main_v21, main_v22, main_c_5, main_v23, main_v24, main_c_6, main_v25, main_v26, main_v27, main_v28, main_v29, main_v30]
  | 3 => outs spec0
  | 4 => [main_c_7, main_v32, main_v33, main_c_8, main_v34, main_v35, main_v36, main_v37, main_v38, main_v39, main_v40, main_v41, main_cst_9, main_v42, main_v43, main_v44]
  | 5 => outs spec1
  | 6 => [main_cst_10, main_v46, main_v47, main_cst_11, main_v48, main_v49, main_v50, main_v51]
  | 7 => outs spec2
  | 8 => outs spec3
  | 9 => [main_c_12, main_v54, main_v55, main_c_13, main_v56, main_v57, main_v58, main_v59, main_v60, main_v61, main_v62, main_v63, main_cst_14, main_v64, main_v65, main_v66]
  | 10 => outs spec4
  | 11 => [main_cst_15, main_v68, main_v69, main_cst_16, main_v70, main_v71, main_v72, main_v73]
  | 12 => outs spec5
  | 13 => outs spec6
  | 14 => [main_c_17, main_v76, main_v77, main_c_18, main_v78, main_v79, main_v80, main_v81, main_v82, main_v83, main_v84, main_v85, main_cst_19, main_v86, main_v87, main_v88]
  | 15 => outs spec7
  | 16 => [main_cst_20, main_v90, main_v91, main_cst_21, main_v92, main_v93, main_v94, main_v95]
  | 17 => outs spec8
  | 18 => outs spec9
  | 19 => [main_c_22, main_v98, main_v99, main_c_23, main_v100, main_v101, main_v102, main_v103, main_v104, main_v105, main_v106, main_v107, main_cst_24, main_v108, main_v109, main_v110]
  | 20 => outs spec10
  | 21 => [main_cst_25, main_v112, main_v113, main_cst_26, main_v114, main_v115, main_v116, main_v117]
  | 22 => outs spec11
  | 23 => [main_v119, main_v120, main_v121, main_v122, main_v123, main_v124, main_v125, main_v126, main_cst_27, main_v127]
  | 24 => outs spec12
  | 25 => [main_cst_28]
  | 26 => [main_call1_v0, main_call1_v1, main_v129]
  | 27 => [main_v130, main_v131, main_v132]
  | 28 => outs spec13
  | _ => []

theorem s0 (c : Dev nD) : Keeps (wr 0) (W0 m ρ c) (W1 m ρ c) := .host rfl _
theorem s1 (c : Dev nD) : Keeps (wr 1) (W1 m ρ c) (W2 m ρ c) := .host rfl _
theorem s2 (c : Dev nD) : Keeps (wr 2) (W2 m ρ c) (W3 m ρ c) := .host rfl _
theorem s3 (c : Dev nD) : Keeps (wr 3) (W3 m ρ c) (W4 m ρ c) := .region (dat0 (V3 m ρ) c) launch0.win.arr_inj _ (A_eq0 (V3 m ρ) c)
theorem s4 (c : Dev nD) : Keeps (wr 4) (W4 m ρ c) (W5 m ρ c) := .host rfl _
theorem s5 (c : Dev nD) : Keeps (wr 5) (W5 m ρ c) (W6 m ρ c) := .region (dat1 (V5 m ρ) c) launch1.win.arr_inj _ (A_eq1 (V5 m ρ) c)
theorem s6 (c : Dev nD) : Keeps (wr 6) (W6 m ρ c) (W7 m ρ c) := .host rfl _
theorem s7 (c : Dev nD) : Keeps (wr 7) (W7 m ρ c) (W8 m ρ c) := .region (dat2 (V7 m ρ) c) launch2.win.arr_inj _ (A_eq2 (V7 m ρ) c)
theorem s8 (c : Dev nD) : Keeps (wr 8) (W8 m ρ c) (W9 m ρ c) := .region (dat3 (V8 m ρ) c) launch3.win.arr_inj _ (A_eq3 (V8 m ρ) c)
theorem s9 (c : Dev nD) : Keeps (wr 9) (W9 m ρ c) (W10 m ρ c) := .host rfl _
theorem s10 (c : Dev nD) : Keeps (wr 10) (W10 m ρ c) (W11 m ρ c) := .region (dat4 (V10 m ρ) c) launch4.win.arr_inj _ (A_eq4 (V10 m ρ) c)
theorem s11 (c : Dev nD) : Keeps (wr 11) (W11 m ρ c) (W12 m ρ c) := .host rfl _
theorem s12 (c : Dev nD) : Keeps (wr 12) (W12 m ρ c) (W13 m ρ c) := .region (dat5 (V12 m ρ) c) launch5.win.arr_inj _ (A_eq5 (V12 m ρ) c)
theorem s13 (c : Dev nD) : Keeps (wr 13) (W13 m ρ c) (W14 m ρ c) := .region (dat6 (V13 m ρ) c) launch6.win.arr_inj _ (A_eq6 (V13 m ρ) c)
theorem s14 (c : Dev nD) : Keeps (wr 14) (W14 m ρ c) (W15 m ρ c) := .host rfl _
theorem s15 (c : Dev nD) : Keeps (wr 15) (W15 m ρ c) (W16 m ρ c) := .region (dat7 (V15 m ρ) c) launch7.win.arr_inj _ (A_eq7 (V15 m ρ) c)
theorem s16 (c : Dev nD) : Keeps (wr 16) (W16 m ρ c) (W17 m ρ c) := .host rfl _
theorem s17 (c : Dev nD) : Keeps (wr 17) (W17 m ρ c) (W18 m ρ c) := .region (dat8 (V17 m ρ) c) launch8.win.arr_inj _ (A_eq8 (V17 m ρ) c)
theorem s18 (c : Dev nD) : Keeps (wr 18) (W18 m ρ c) (W19 m ρ c) := .region (dat9 (V18 m ρ) c) launch9.win.arr_inj _ (A_eq9 (V18 m ρ) c)
theorem s19 (c : Dev nD) : Keeps (wr 19) (W19 m ρ c) (W20 m ρ c) := .host rfl _
theorem s20 (c : Dev nD) : Keeps (wr 20) (W20 m ρ c) (W21 m ρ c) := .region (dat10 (V20 m ρ) c) launch10.win.arr_inj _ (A_eq10 (V20 m ρ) c)
theorem s21 (c : Dev nD) : Keeps (wr 21) (W21 m ρ c) (W22 m ρ c) := .host rfl _
theorem s22 (c : Dev nD) : Keeps (wr 22) (W22 m ρ c) (W23 m ρ c) := .region (dat11 (V22 m ρ) c) launch11.win.arr_inj _ (A_eq11 (V22 m ρ) c)
theorem s23 (c : Dev nD) : Keeps (wr 23) (W23 m ρ c) (W24 m ρ c) := .host rfl _
theorem s24 (c : Dev nD) : Keeps (wr 24) (W24 m ρ c) (W25 m ρ c) := .region (dat12 (V24 m ρ) c) launch12.win.arr_inj _ (A_eq12 (V24 m ρ) c)
theorem s25 (c : Dev nD) : Keeps (wr 25) (W25 m ρ c) (W26 m ρ c) := .host rfl _
theorem s26 (c : Dev nD) : Keeps (wr 26) (W26 m ρ c) (W27 m ρ c) := .host rfl _
theorem s27 (c : Dev nD) : Keeps (wr 27) (W27 m ρ c) (W28 m ρ c) := .host rfl _
theorem s28 (c : Dev nD) : Keeps (wr 28) (W28 m ρ c) (W29 m ρ c) := .region (dat13 (V28 m ρ) c) launch13.win.arr_inj _ (A_eq13 (V28 m ρ) c)

theorem run (c : Dev nD) : [0, 1, 2, 3, 4, 5, 6, 7, 8, 9, 10, 11, 12, 13, 14, 15, 16, 17, 18, 19, 20, 21, 22, 23, 24, 25, 26, 27, 28].Forall fun k => Keeps (wr k) (Wn m ρ k c) (Wn m ρ (k + 1) c) :=
  ⟨s0 m ρ c, s1 m ρ c, s2 m ρ c, s3 m ρ c, s4 m ρ c, s5 m ρ c, s6 m ρ c, s7 m ρ c, s8 m ρ c, s9 m ρ c, s10 m ρ c, s11 m ρ c, s12 m ρ c, s13 m ρ c, s14 m ρ c, s15 m ρ c, s16 m ρ c, s17 m ρ c, s18 m ρ c, s19 m ρ c, s20 m ρ c, s21 m ρ c, s22 m ρ c, s23 m ρ c, s24 m ρ c, s25 m ρ c, s26 m ρ c, s27 m ρ c, s28 m ρ c⟩

/-- What the `n` steps from boundary `j` may change. -/
def wrs (j : ℕ) : ℕ → List (Ref sig .tc)
  | 0 => []
  | n + 1 => wrs j n ++ wr (j + n)

theorem keeps (c : Dev nD) (j : ℕ) : ∀ n, j + n ≤ 29 → Keeps (wrs j n) (Wn m ρ j c) (Wn m ρ (j + n) c)
  | 0, _ => fun _ _ => rfl
  | n + 1, h => (keeps c j n (Nat.le_of_succ_le h)).trans
      (List.forall_iff_forall_mem.mp (run m ρ c) (j + n) (List.mem_range.mpr h))

theorem arg0_W3 (c : Dev nD) : W3 m ρ c (Proc.devRef .tc main_arg0) = m ((c : Thread nD τ).loc main_arg0) :=
  keeps m ρ c 0 3 (by decide) main_arg0 (by decide)

theorem arg3_W3 (c : Dev nD) : W3 m ρ c (Proc.devRef .tc main_arg3) = m ((c : Thread nD τ).loc main_arg3) :=
  keeps m ρ c 0 3 (by decide) main_arg3 (by decide)

theorem arg4_W5 (c : Dev nD) : W5 m ρ c (Proc.devRef .tc main_arg4) = m ((c : Thread nD τ).loc main_arg4) :=
  keeps m ρ c 0 5 (by decide) main_arg4 (by decide)

theorem arg4_W7 (c : Dev nD) : W7 m ρ c (Proc.devRef .tc main_arg4) = m ((c : Thread nD τ).loc main_arg4) :=
  keeps m ρ c 0 7 (by decide) main_arg4 (by decide)

theorem arg5_W7 (c : Dev nD) : W7 m ρ c (Proc.devRef .tc main_arg5) = m ((c : Thread nD τ).loc main_arg5) :=
  keeps m ρ c 0 7 (by decide) main_arg5 (by decide)

theorem arg6_W7 (c : Dev nD) : W7 m ρ c (Proc.devRef .tc main_arg6) = m ((c : Thread nD τ).loc main_arg6) :=
  keeps m ρ c 0 7 (by decide) main_arg6 (by decide)

theorem arg7_W8 (c : Dev nD) : W8 m ρ c (Proc.devRef .tc main_arg7) = m ((c : Thread nD τ).loc main_arg7) :=
  keeps m ρ c 0 8 (by decide) main_arg7 (by decide)

theorem arg8_W10 (c : Dev nD) : W10 m ρ c (Proc.devRef .tc main_arg8) = m ((c : Thread nD τ).loc main_arg8) :=
  keeps m ρ c 0 10 (by decide) main_arg8 (by decide)

theorem arg8_W12 (c : Dev nD) : W12 m ρ c (Proc.devRef .tc main_arg8) = m ((c : Thread nD τ).loc main_arg8) :=
  keeps m ρ c 0 12 (by decide) main_arg8 (by decide)

theorem arg9_W12 (c : Dev nD) : W12 m ρ c (Proc.devRef .tc main_arg9) = m ((c : Thread nD τ).loc main_arg9) :=
  keeps m ρ c 0 12 (by decide) main_arg9 (by decide)

theorem arg10_W12 (c : Dev nD) : W12 m ρ c (Proc.devRef .tc main_arg10) = m ((c : Thread nD τ).loc main_arg10) :=
  keeps m ρ c 0 12 (by decide) main_arg10 (by decide)

theorem arg11_W13 (c : Dev nD) : W13 m ρ c (Proc.devRef .tc main_arg11) = m ((c : Thread nD τ).loc main_arg11) :=
  keeps m ρ c 0 13 (by decide) main_arg11 (by decide)

theorem arg12_W17 (c : Dev nD) : W17 m ρ c (Proc.devRef .tc main_arg12) = m ((c : Thread nD τ).loc main_arg12) :=
  keeps m ρ c 0 17 (by decide) main_arg12 (by decide)

theorem arg12_W15 (c : Dev nD) : W15 m ρ c (Proc.devRef .tc main_arg12) = m ((c : Thread nD τ).loc main_arg12) :=
  keeps m ρ c 0 15 (by decide) main_arg12 (by decide)

theorem arg13_W17 (c : Dev nD) : W17 m ρ c (Proc.devRef .tc main_arg13) = m ((c : Thread nD τ).loc main_arg13) :=
  keeps m ρ c 0 17 (by decide) main_arg13 (by decide)

theorem arg14_W17 (c : Dev nD) : W17 m ρ c (Proc.devRef .tc main_arg14) = m ((c : Thread nD τ).loc main_arg14) :=
  keeps m ρ c 0 17 (by decide) main_arg14 (by decide)

theorem arg15_W18 (c : Dev nD) : W18 m ρ c (Proc.devRef .tc main_arg15) = m ((c : Thread nD τ).loc main_arg15) :=
  keeps m ρ c 0 18 (by decide) main_arg15 (by decide)

theorem arg16_W22 (c : Dev nD) : W22 m ρ c (Proc.devRef .tc main_arg16) = m ((c : Thread nD τ).loc main_arg16) :=
  keeps m ρ c 0 22 (by decide) main_arg16 (by decide)

theorem arg16_W20 (c : Dev nD) : W20 m ρ c (Proc.devRef .tc main_arg16) = m ((c : Thread nD τ).loc main_arg16) :=
  keeps m ρ c 0 20 (by decide) main_arg16 (by decide)

theorem arg17_W22 (c : Dev nD) : W22 m ρ c (Proc.devRef .tc main_arg17) = m ((c : Thread nD τ).loc main_arg17) :=
  keeps m ρ c 0 22 (by decide) main_arg17 (by decide)

theorem arg18_W22 (c : Dev nD) : W22 m ρ c (Proc.devRef .tc main_arg18) = m ((c : Thread nD τ).loc main_arg18) :=
  keeps m ρ c 0 22 (by decide) main_arg18 (by decide)

theorem arg2_W23 (c : Dev nD) : W23 m ρ c (Proc.devRef .tc main_arg2) = m ((c : Thread nD τ).loc main_arg2) :=
  keeps m ρ c 0 23 (by decide) main_arg2 (by decide)

theorem arg19_W28 (c : Dev nD) : W28 m ρ c (Proc.devRef .tc main_arg19) = m ((c : Thread nD τ).loc main_arg19) :=
  keeps m ρ c 0 28 (by decide) main_arg19 (by decide)

theorem arg20_W28 (c : Dev nD) : W28 m ρ c (Proc.devRef .tc main_arg20) = m ((c : Thread nD τ).loc main_arg20) :=
  keeps m ρ c 0 28 (by decide) main_arg20 (by decide)

theorem arg21_W28 (c : Dev nD) : W28 m ρ c (Proc.devRef .tc main_arg21) = m ((c : Thread nD τ).loc main_arg21) :=
  keeps m ρ c 0 28 (by decide) main_arg21 (by decide)

theorem arg22_W28 (c : Dev nD) : W28 m ρ c (Proc.devRef .tc main_arg22) = m ((c : Thread nD τ).loc main_arg22) :=
  keeps m ρ c 0 28 (by decide) main_arg22 (by decide)

theorem v3_W4 (c : Dev nD) : W4 m ρ c (Proc.devRef .tc main_v3) = W3 m ρ c (Proc.devRef .tc main_v3) :=
  keeps m ρ c 3 1 (by decide) main_v3 (by decide)

theorem v3_W9 (c : Dev nD) : W9 m ρ c (Proc.devRef .tc main_v3) = W3 m ρ c (Proc.devRef .tc main_v3) :=
  keeps m ρ c 3 6 (by decide) main_v3 (by decide)

theorem v3_W14 (c : Dev nD) : W14 m ρ c (Proc.devRef .tc main_v3) = W3 m ρ c (Proc.devRef .tc main_v3) :=
  keeps m ρ c 3 11 (by decide) main_v3 (by decide)

theorem v3_W19 (c : Dev nD) : W19 m ρ c (Proc.devRef .tc main_v3) = W3 m ρ c (Proc.devRef .tc main_v3) :=
  keeps m ρ c 3 16 (by decide) main_v3 (by decide)

theorem v6_W4 (c : Dev nD) : W4 m ρ c (Proc.devRef .tc main_v6) = W3 m ρ c (Proc.devRef .tc main_v6) :=
  keeps m ρ c 3 1 (by decide) main_v6 (by decide)

theorem v6_W9 (c : Dev nD) : W9 m ρ c (Proc.devRef .tc main_v6) = W3 m ρ c (Proc.devRef .tc main_v6) :=
  keeps m ρ c 3 6 (by decide) main_v6 (by decide)

theorem v6_W14 (c : Dev nD) : W14 m ρ c (Proc.devRef .tc main_v6) = W3 m ρ c (Proc.devRef .tc main_v6) :=
  keeps m ρ c 3 11 (by decide) main_v6 (by decide)

theorem v6_W19 (c : Dev nD) : W19 m ρ c (Proc.devRef .tc main_v6) = W3 m ρ c (Proc.devRef .tc main_v6) :=
  keeps m ρ c 3 16 (by decide) main_v6 (by decide)

theorem v30_W4 (c : Dev nD) : W4 m ρ c (Proc.devRef .tc main_v30) = W3 m ρ c (Proc.devRef .tc main_v30) :=
  keeps m ρ c 3 1 (by decide) main_v30 (by decide)

theorem v30_W9 (c : Dev nD) : W9 m ρ c (Proc.devRef .tc main_v30) = W3 m ρ c (Proc.devRef .tc main_v30) :=
  keeps m ρ c 3 6 (by decide) main_v30 (by decide)

theorem v30_W14 (c : Dev nD) : W14 m ρ c (Proc.devRef .tc main_v30) = W3 m ρ c (Proc.devRef .tc main_v30) :=
  keeps m ρ c 3 11 (by decide) main_v30 (by decide)

theorem v30_W19 (c : Dev nD) : W19 m ρ c (Proc.devRef .tc main_v30) = W3 m ρ c (Proc.devRef .tc main_v30) :=
  keeps m ρ c 3 16 (by decide) main_v30 (by decide)

theorem v44_W7 (c : Dev nD) : W7 m ρ c (Proc.devRef .tc main_v44) = W5 m ρ c (Proc.devRef .tc main_v44) :=
  keeps m ρ c 5 2 (by decide) main_v44 (by decide)

theorem v66_W12 (c : Dev nD) : W12 m ρ c (Proc.devRef .tc main_v66) = W10 m ρ c (Proc.devRef .tc main_v66) :=
  keeps m ρ c 10 2 (by decide) main_v66 (by decide)

theorem v88_W17 (c : Dev nD) : W17 m ρ c (Proc.devRef .tc main_v88) = W15 m ρ c (Proc.devRef .tc main_v88) :=
  keeps m ρ c 15 2 (by decide) main_v88 (by decide)

theorem v110_W22 (c : Dev nD) : W22 m ρ c (Proc.devRef .tc main_v110) = W20 m ρ c (Proc.devRef .tc main_v110) :=
  keeps m ρ c 20 2 (by decide) main_v110 (by decide)

theorem v118_W24 (c : Dev nD) : W24 m ρ c (Proc.devRef .tc main_v118) = W23 m ρ c (Proc.devRef .tc main_v118) :=
  keeps m ρ c 23 1 (by decide) main_v118 (by decide)

theorem v127_W25 (c : Dev nD) : W25 m ρ c (Proc.devRef .tc main_v127) = W24 m ρ c (Proc.devRef .tc main_v127) :=
  keeps m ρ c 24 1 (by decide) main_v127 (by decide)

end Cert.Keep

end
-- ==== Proof.KChain.lean ====
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.KMath
import proofs.«418940_j1529008358070_1_alg».proof.Proof.RegMM
import proofs.«418940_j1529008358070_1_alg».proof.Proof.RegStats
import proofs.«418940_j1529008358070_1_alg».proof.Proof.RegBN
import proofs.«418940_j1529008358070_1_alg».proof.Proof.RegPool
import proofs.«418940_j1529008358070_1_alg».proof.Proof.RegHead
import proofs.«418940_j1529008358070_1_alg».proof.Proof.KHost
import proofs.«418940_j1529008358070_1_alg».proof.Proof.Keep

set_option maxRecDepth 16384

noncomputable section

namespace Cert.KChain

section Compose

open Idealize.ShloMosaic Cert.ReferenceIdeal Cert.KMath

theorem layer_of {src dst : I S850000} {nrm : A S850000} {h : A S50000x64} {b g bt : A S64}
    {agg : A S50000x64} {s1 s2 mu var : A S1x64} {out : A S50000x64}
    (ha : agg = Cert.Stages.aggregate (F := Ideal) src dst nrm h)
    (hs1 : s1 = sum1 agg b) (hs2 : s2 = sum2 agg b)
    (hmu : mu = meanK s1) (hvar : var = varK s1 s2)
    (hout : out = normReluK agg b mu var g bt) :
    out = layerK src dst nrm h b g bt := by
  subst ha hs1 hs2 hmu hvar hout
  rfl

theorem net_of {x : A S50000x1} {ei : I S2x800000} {batch : I S50000}
    {w1 : A S1x64} {b1 g1 bt1 : A S64} {w2 : A S64x64} {b2 g2 bt2 : A S64}
    {w3 : A S64x64} {b3 g3 bt3 : A S64} {w4 : A S64x64} {b4 g4 bt4 : A S64}
    {fw1 : A S128x64} {fb1 : A S128} {fw2 : A S10x128} {fb2 : A S10}
    {src dst : I S850000} {nrm : A S850000} {x1 x2 x3 x4 : A S50000x64} {out : A S64x10}
    (hsrc : src = Cert.Stages.endpoints0 (F := Ideal) ei) (hdst : dst = Cert.Stages.endpoints1 (F := Ideal) ei)
    (hnrm : nrm = Cert.Stages.edgeWeight (F := Ideal) (Cert.Stages.endpoints0 (F := Ideal) ei) (Cert.Stages.endpoints1 (F := Ideal) ei))
    (h1 : x1 = layerK src dst nrm (Cert.Stages.project1 (F := Ideal) x w1) b1 g1 bt1)
    (h2 : x2 = layerK src dst nrm (Cert.Stages.project (F := Ideal) x1 w2) b2 g2 bt2)
    (h3 : x3 = layerK src dst nrm (Cert.Stages.project (F := Ideal) x2 w3) b3 g3 bt3)
    (h4 : x4 = layerK src dst nrm (Cert.Stages.project (F := Ideal) x3 w4) b4 g4 bt4)
    (hout : out = Cert.Stages.head (F := Ideal) (Cert.Stages.graphMeanOf (F := Ideal) (poolK (oneHot batch) x4) (countK batch)) fw1 fb1 fw2 fb2) :
    out = netK x ei batch w1 b1 g1 bt1 w2 b2 g2 bt2 w3 b3 g3 bt3 w4 b4 g4 bt4 fw1 fb1 fw2 fb2 := by
  subst hsrc hdst hnrm h1 h2 h3 h4 hout
  rfl

end Compose

open Idealize.ShloMosaic Idealize.ShloMosaic.TcCoe Idealize.SL.Sem Idealize.ShloMosaic.StableHlo Cert.KernelIdeal Cert.KernelIdeal.Gen

local notation "dr" => Proc.devRef (τ := τ) (sig := sig) Proc.tc

section Run

variable (m : (ℓ : Loc nD τ sig) → Buf (Elt Ideal) ℓ) (ρ : Dev nD → PrngReg) (c : Dev nD)

-- an argument's contents at launch
abbrev arg (b : Ref sig .tc) : Buf (Elt Ideal) ((c.tc : Thread nD τ).loc b) := m ((c.tc : Thread nD τ).loc b)

theorem src3 : W3 m ρ c (dr main_v3) = Cert.Stages.endpoints0 (F := Ideal) (arg m c main_arg1) :=
  (Cert.KHost.graph (W0 m ρ c)).1

theorem dst3 : W3 m ρ c (dr main_v6) = Cert.Stages.endpoints1 (F := Ideal) (arg m c main_arg1) :=
  (Cert.KHost.graph (W0 m ρ c)).2.1

theorem nrm3 : W3 m ρ c (dr main_v30) = Cert.Stages.edgeWeight (F := Ideal) (Cert.Stages.endpoints0 (F := Ideal) (arg m c main_arg1)) (Cert.Stages.endpoints1 (F := Ideal) (arg m c main_arg1)) :=
  (Cert.KHost.graph (W0 m ρ c)).2.2

theorem proj1 : W4 m ρ c (dr main_v31) = Cert.Stages.project1 (F := Ideal) (arg m c main_arg0) (arg m c main_arg3) :=
  have kx : V3 m ρ c main_arg0 = (arg m c main_arg0) := Cert.Keep.arg0_W3 m ρ c
  have kw : V3 m ρ c main_arg3 = (arg m c main_arg3) := Cert.Keep.arg3_W3 m ρ c
  (W4_arr m ρ c 2).trans ((Cert.RegMM.out0 (V3 m ρ) c).trans (by rw [kx, kw]))

theorem agg1 : W5 m ρ c (dr main_v44) = Cert.Stages.aggregate (F := Ideal) (W3 m ρ c (dr main_v3)) (W3 m ρ c (dr main_v6)) (W3 m ρ c (dr main_v30)) (Cert.Stages.project1 (F := Ideal) (arg m c main_arg0) (arg m c main_arg3)) :=
  (Cert.KHost.agg1 (W4 m ρ c)).trans (by rw [Cert.Keep.v3_W4 m ρ c, Cert.Keep.v6_W4 m ρ c, Cert.Keep.v30_W4 m ρ c, proj1 m ρ c])

theorem sumA1 : W6 m ρ c (dr main_v45_0) = Cert.KMath.sum1 (W5 m ρ c (dr main_v44)) (arg m c main_arg4) :=
  have kb : V5 m ρ c main_arg4 = (arg m c main_arg4) := Cert.Keep.arg4_W5 m ρ c
  (W6_arr m ρ c 2).trans ((Cert.RegStats.s1_1 (V5 m ρ) c).trans (by rw [kb]))

theorem sumB1 : W6 m ρ c (dr main_v45_1) = Cert.KMath.sum2 (W5 m ρ c (dr main_v44)) (arg m c main_arg4) :=
  have kb : V5 m ρ c main_arg4 = (arg m c main_arg4) := Cert.Keep.arg4_W5 m ρ c
  (W6_arr m ρ c 3).trans ((Cert.RegStats.s2_1 (V5 m ρ) c).trans (by rw [kb]))

theorem mean1 : W7 m ρ c (dr main_v47) = Cert.KMath.meanK (W6 m ρ c (dr main_v45_0)) :=
  (Cert.KHost.mv2 (W6 m ρ c)).1

theorem var1 : W7 m ρ c (dr main_v51) = Cert.KMath.varK (W6 m ρ c (dr main_v45_0)) (W6 m ρ c (dr main_v45_1)) :=
  (Cert.KHost.mv2 (W6 m ρ c)).2

theorem norm1 : W8 m ρ c (dr main_v52) = Cert.KMath.normReluK (W5 m ρ c (dr main_v44)) (arg m c main_arg4) (W7 m ρ c (dr main_v47)) (W7 m ρ c (dr main_v51)) (arg m c main_arg5) (arg m c main_arg6) :=
  have ka : V7 m ρ c main_v44 = (W5 m ρ c (dr main_v44)) := Cert.Keep.v44_W7 m ρ c
  have kb : V7 m ρ c main_arg4 = (arg m c main_arg4) := Cert.Keep.arg4_W7 m ρ c
  have kg : V7 m ρ c main_arg5 = (arg m c main_arg5) := Cert.Keep.arg5_W7 m ρ c
  have kt : V7 m ρ c main_arg6 = (arg m c main_arg6) := Cert.Keep.arg6_W7 m ρ c
  (W8_arr m ρ c 6).trans ((Cert.RegBN.out2 (V7 m ρ) c).trans (by rw [ka, kb, kg, kt]))

theorem layer1 : W8 m ρ c (dr main_v52) = Cert.KMath.layerK (W3 m ρ c (dr main_v3)) (W3 m ρ c (dr main_v6)) (W3 m ρ c (dr main_v30)) (Cert.Stages.project1 (F := Ideal) (arg m c main_arg0) (arg m c main_arg3)) (arg m c main_arg4) (arg m c main_arg5) (arg m c main_arg6) :=
  layer_of (agg1 m ρ c) (sumA1 m ρ c) (sumB1 m ρ c) (mean1 m ρ c) (var1 m ρ c) (norm1 m ρ c)

theorem proj2 : W9 m ρ c (dr main_v53) = Cert.Stages.project (F := Ideal) (W8 m ρ c (dr main_v52)) (arg m c main_arg7) :=
  have kw : V8 m ρ c main_arg7 = (arg m c main_arg7) := Cert.Keep.arg7_W8 m ρ c
  (W9_arr m ρ c 2).trans ((Cert.RegMM.out3 (V8 m ρ) c).trans (by rw [kw]))

theorem agg2 : W10 m ρ c (dr main_v66) = Cert.Stages.aggregate (F := Ideal) (W3 m ρ c (dr main_v3)) (W3 m ρ c (dr main_v6)) (W3 m ρ c (dr main_v30)) (Cert.Stages.project (F := Ideal) (W8 m ρ c (dr main_v52)) (arg m c main_arg7)) :=
  (Cert.KHost.agg4 (W9 m ρ c)).trans (by rw [Cert.Keep.v3_W9 m ρ c, Cert.Keep.v6_W9 m ρ c, Cert.Keep.v30_W9 m ρ c, proj2 m ρ c])

theorem sumA2 : W11 m ρ c (dr main_v67_0) = Cert.KMath.sum1 (W10 m ρ c (dr main_v66)) (arg m c main_arg8) :=
  have kb : V10 m ρ c main_arg8 = (arg m c main_arg8) := Cert.Keep.arg8_W10 m ρ c
  (W11_arr m ρ c 2).trans ((Cert.RegStats.s1_4 (V10 m ρ) c).trans (by rw [kb]))

theorem sumB2 : W11 m ρ c (dr main_v67_1) = Cert.KMath.sum2 (W10 m ρ c (dr main_v66)) (arg m c main_arg8) :=
  have kb : V10 m ρ c main_arg8 = (arg m c main_arg8) := Cert.Keep.arg8_W10 m ρ c
  (W11_arr m ρ c 3).trans ((Cert.RegStats.s2_4 (V10 m ρ) c).trans (by rw [kb]))

theorem mean2 : W12 m ρ c (dr main_v69) = Cert.KMath.meanK (W11 m ρ c (dr main_v67_0)) :=
  (Cert.KHost.mv5 (W11 m ρ c)).1

theorem var2 : W12 m ρ c (dr main_v73) = Cert.KMath.varK (W11 m ρ c (dr main_v67_0)) (W11 m ρ c (dr main_v67_1)) :=
  (Cert.KHost.mv5 (W11 m ρ c)).2

theorem norm2 : W13 m ρ c (dr main_v74) = Cert.KMath.normReluK (W10 m ρ c (dr main_v66)) (arg m c main_arg8) (W12 m ρ c (dr main_v69)) (W12 m ρ c (dr main_v73)) (arg m c main_arg9) (arg m c main_arg10) :=
  have ka : V12 m ρ c main_v66 = (W10 m ρ c (dr main_v66)) := Cert.Keep.v66_W12 m ρ c
  have kb : V12 m ρ c main_arg8 = (arg m c main_arg8) := Cert.Keep.arg8_W12 m ρ c
  have kg : V12 m ρ c main_arg9 = (arg m c main_arg9) := Cert.Keep.arg9_W12 m ρ c
  have kt : V12 m ρ c main_arg10 = (arg m c main_arg10) := Cert.Keep.arg10_W12 m ρ c
  (W13_arr m ρ c 6).trans ((Cert.RegBN.out5 (V12 m ρ) c).trans (by rw [ka, kb, kg, kt]))

theorem layer2 : W13 m ρ c (dr main_v74) = Cert.KMath.layerK (W3 m ρ c (dr main_v3)) (W3 m ρ c (dr main_v6)) (W3 m ρ c (dr main_v30)) (Cert.Stages.project (F := Ideal) (W8 m ρ c (dr main_v52)) (arg m c main_arg7)) (arg m c main_arg8) (arg m c main_arg9) (arg m c main_arg10) :=
  layer_of (agg2 m ρ c) (sumA2 m ρ c) (sumB2 m ρ c) (mean2 m ρ c) (var2 m ρ c) (norm2 m ρ c)

theorem proj3 : W14 m ρ c (dr main_v75) = Cert.Stages.project (F := Ideal) (W13 m ρ c (dr main_v74)) (arg m c main_arg11) :=
  have kw : V13 m ρ c main_arg11 = (arg m c main_arg11) := Cert.Keep.arg11_W13 m ρ c
  (W14_arr m ρ c 2).trans ((Cert.RegMM.out6 (V13 m ρ) c).trans (by rw [kw]))

theorem agg3 : W15 m ρ c (dr main_v88) = Cert.Stages.aggregate (F := Ideal) (W3 m ρ c (dr main_v3)) (W3 m ρ c (dr main_v6)) (W3 m ρ c (dr main_v30)) (Cert.Stages.project (F := Ideal) (W13 m ρ c (dr main_v74)) (arg m c main_arg11)) :=
  (Cert.KHost.agg7 (W14 m ρ c)).trans (by rw [Cert.Keep.v3_W14 m ρ c, Cert.Keep.v6_W14 m ρ c, Cert.Keep.v30_W14 m ρ c, proj3 m ρ c])

theorem sumA3 : W16 m ρ c (dr main_v89_0) = Cert.KMath.sum1 (W15 m ρ c (dr main_v88)) (arg m c main_arg12) :=
  have kb : V15 m ρ c main_arg12 = (arg m c main_arg12) := Cert.Keep.arg12_W15 m ρ c
  (W16_arr m ρ c 2).trans ((Cert.RegStats.s1_7 (V15 m ρ) c).trans (by rw [kb]))

theorem sumB3 : W16 m ρ c (dr main_v89_1) = Cert.KMath.sum2 (W15 m ρ c (dr main_v88)) (arg m c main_arg12) :=
  have kb : V15 m ρ c main_arg12 = (arg m c main_arg12) := Cert.Keep.arg12_W15 m ρ c
  (W16_arr m ρ c 3).trans ((Cert.RegStats.s2_7 (V15 m ρ) c).trans (by rw [kb]))

theorem mean3 : W17 m ρ c (dr main_v91) = Cert.KMath.meanK (W16 m ρ c (dr main_v89_0)) :=
  (Cert.KHost.mv8 (W16 m ρ c)).1

theorem var3 : W17 m ρ c (dr main_v95) = Cert.KMath.varK (W16 m ρ c (dr main_v89_0)) (W16 m ρ c (dr main_v89_1)) :=
  (Cert.KHost.mv8 (W16 m ρ c)).2

theorem norm3 : W18 m ρ c (dr main_v96) = Cert.KMath.normReluK (W15 m ρ c (dr main_v88)) (arg m c main_arg12) (W17 m ρ c (dr main_v91)) (W17 m ρ c (dr main_v95)) (arg m c main_arg13) (arg m c main_arg14) :=
  have ka : V17 m ρ c main_v88 = (W15 m ρ c (dr main_v88)) := Cert.Keep.v88_W17 m ρ c
  have kb : V17 m ρ c main_arg12 = (arg m c main_arg12) := Cert.Keep.arg12_W17 m ρ c
  have kg : V17 m ρ c main_arg13 = (arg m c main_arg13) := Cert.Keep.arg13_W17 m ρ c
  have kt : V17 m ρ c main_arg14 = (arg m c main_arg14) := Cert.Keep.arg14_W17 m ρ c
  (W18_arr m ρ c 6).trans ((Cert.RegBN.out8 (V17 m ρ) c).trans (by rw [ka, kb, kg, kt]))

theorem layer3 : W18 m ρ c (dr main_v96) = Cert.KMath.layerK (W3 m ρ c (dr main_v3)) (W3 m ρ c (dr main_v6)) (W3 m ρ c (dr main_v30)) (Cert.Stages.project (F := Ideal) (W13 m ρ c (dr main_v74)) (arg m c main_arg11)) (arg m c main_arg12) (arg m c main_arg13) (arg m c main_arg14) :=
  layer_of (agg3 m ρ c) (sumA3 m ρ c) (sumB3 m ρ c) (mean3 m ρ c) (var3 m ρ c) (norm3 m ρ c)

theorem proj4 : W19 m ρ c (dr main_v97) = Cert.Stages.project (F := Ideal) (W18 m ρ c (dr main_v96)) (arg m c main_arg15) :=
  have kw : V18 m ρ c main_arg15 = (arg m c main_arg15) := Cert.Keep.arg15_W18 m ρ c
  (W19_arr m ρ c 2).trans ((Cert.RegMM.out9 (V18 m ρ) c).trans (by rw [kw]))

theorem agg4 : W20 m ρ c (dr main_v110) = Cert.Stages.aggregate (F := Ideal) (W3 m ρ c (dr main_v3)) (W3 m ρ c (dr main_v6)) (W3 m ρ c (dr main_v30)) (Cert.Stages.project (F := Ideal) (W18 m ρ c (dr main_v96)) (arg m c main_arg15)) :=
  (Cert.KHost.agg10 (W19 m ρ c)).trans (by rw [Cert.Keep.v3_W19 m ρ c, Cert.Keep.v6_W19 m ρ c, Cert.Keep.v30_W19 m ρ c, proj4 m ρ c])

theorem sumA4 : W21 m ρ c (dr main_v111_0) = Cert.KMath.sum1 (W20 m ρ c (dr main_v110)) (arg m c main_arg16) :=
  have kb : V20 m ρ c main_arg16 = (arg m c main_arg16) := Cert.Keep.arg16_W20 m ρ c
  (W21_arr m ρ c 2).trans ((Cert.RegStats.s1_10 (V20 m ρ) c).trans (by rw [kb]))

theorem sumB4 : W21 m ρ c (dr main_v111_1) = Cert.KMath.sum2 (W20 m ρ c (dr main_v110)) (arg m c main_arg16) :=
  have kb : V20 m ρ c main_arg16 = (arg m c main_arg16) := Cert.Keep.arg16_W20 m ρ c
  (W21_arr m ρ c 3).trans ((Cert.RegStats.s2_10 (V20 m ρ) c).trans (by rw [kb]))

theorem mean4 : W22 m ρ c (dr main_v113) = Cert.KMath.meanK (W21 m ρ c (dr main_v111_0)) :=
  (Cert.KHost.mv11 (W21 m ρ c)).1

theorem var4 : W22 m ρ c (dr main_v117) = Cert.KMath.varK (W21 m ρ c (dr main_v111_0)) (W21 m ρ c (dr main_v111_1)) :=
  (Cert.KHost.mv11 (W21 m ρ c)).2

theorem norm4 : W23 m ρ c (dr main_v118) = Cert.KMath.normReluK (W20 m ρ c (dr main_v110)) (arg m c main_arg16) (W22 m ρ c (dr main_v113)) (W22 m ρ c (dr main_v117)) (arg m c main_arg17) (arg m c main_arg18) :=
  have ka : V22 m ρ c main_v110 = (W20 m ρ c (dr main_v110)) := Cert.Keep.v110_W22 m ρ c
  have kb : V22 m ρ c main_arg16 = (arg m c main_arg16) := Cert.Keep.arg16_W22 m ρ c
  have kg : V22 m ρ c main_arg17 = (arg m c main_arg17) := Cert.Keep.arg17_W22 m ρ c
  have kt : V22 m ρ c main_arg18 = (arg m c main_arg18) := Cert.Keep.arg18_W22 m ρ c
  (W23_arr m ρ c 6).trans ((Cert.RegBN.out11 (V22 m ρ) c).trans (by rw [ka, kb, kg, kt]))

theorem layer4 : W23 m ρ c (dr main_v118) = Cert.KMath.layerK (W3 m ρ c (dr main_v3)) (W3 m ρ c (dr main_v6)) (W3 m ρ c (dr main_v30)) (Cert.Stages.project (F := Ideal) (W18 m ρ c (dr main_v96)) (arg m c main_arg15)) (arg m c main_arg16) (arg m c main_arg17) (arg m c main_arg18) :=
  layer_of (agg4 m ρ c) (sumA4 m ρ c) (sumB4 m ρ c) (mean4 m ρ c) (var4 m ρ c) (norm4 m ρ c)

theorem member : W24 m ρ c (dr main_v125) = Cert.KMath.oneHot (arg m c main_arg2) :=
  (Cert.KHost.oh12 (W23 m ρ c)).1.trans (by rw [Cert.Keep.arg2_W23 m ρ c])

theorem sizes : W24 m ρ c (dr main_v127) = Cert.KMath.countK (arg m c main_arg2) :=
  (Cert.KHost.oh12 (W23 m ρ c)).2.trans (by rw [Cert.Keep.arg2_W23 m ρ c])

theorem pooled : W25 m ρ c (dr main_v128) = Cert.KMath.poolK (Cert.KMath.oneHot (arg m c main_arg2)) (W23 m ρ c (dr main_v118)) :=
  have ko : V24 m ρ c main_v125 = Cert.KMath.oneHot (arg m c main_arg2) := member m ρ c
  have kx : V24 m ρ c main_v118 = (W23 m ρ c (dr main_v118)) := Cert.Keep.v118_W24 m ρ c
  (W25_arr m ρ c 2).trans ((Cert.RegPool.out12 (V24 m ρ) c).trans (by rw [ko, kx]))

theorem pmean : W28 m ρ c (dr main_v132) = Cert.Stages.graphMeanOf (F := Ideal) (Cert.KMath.poolK (Cert.KMath.oneHot (arg m c main_arg2)) (W23 m ρ c (dr main_v118))) (Cert.KMath.countK (arg m c main_arg2)) :=
  (Cert.KHost.pooled13 (W25 m ρ c)).trans (by rw [pooled m ρ c, Cert.Keep.v127_W25 m ρ c, sizes m ρ c])

theorem headv : W29 m ρ c (dr main_v133) = Cert.Stages.head (F := Ideal) (Cert.Stages.graphMeanOf (F := Ideal) (Cert.KMath.poolK (Cert.KMath.oneHot (arg m c main_arg2)) (W23 m ρ c (dr main_v118))) (Cert.KMath.countK (arg m c main_arg2))) (arg m c main_arg19) (arg m c main_arg20) (arg m c main_arg21) (arg m c main_arg22) :=
  have kp : V28 m ρ c main_v132 = Cert.Stages.graphMeanOf (F := Ideal) (Cert.KMath.poolK (Cert.KMath.oneHot (arg m c main_arg2)) (W23 m ρ c (dr main_v118))) (Cert.KMath.countK (arg m c main_arg2)) := pmean m ρ c
  have k19 : V28 m ρ c main_arg19 = (arg m c main_arg19) := Cert.Keep.arg19_W28 m ρ c
  have k20 : V28 m ρ c main_arg20 = (arg m c main_arg20) := Cert.Keep.arg20_W28 m ρ c
  have k21 : V28 m ρ c main_arg21 = (arg m c main_arg21) := Cert.Keep.arg21_W28 m ρ c
  have k22 : V28 m ρ c main_arg22 = (arg m c main_arg22) := Cert.Keep.arg22_W28 m ρ c
  (W29_arr m ρ c 5).trans ((Cert.RegHead.out13 (V28 m ρ) c).trans (by rw [kp, k19, k20, k21, k22]))

end Run

theorem value (m : (ℓ : Loc nD τ sig) → Buf (Elt Ideal) ℓ) (ρ : Dev nD → PrngReg) (c : Dev nD) :
    W29 (F := Ideal) m ρ c (Proc.devRef .tc main_v133) = Cert.KMath.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  net_of (src3 m ρ c) (dst3 m ρ c) (nrm3 m ρ c) (layer1 m ρ c) (layer2 m ρ c) (layer3 m ρ c) (layer4 m ρ c) (headv m ρ c)

end Cert.KChain

end
-- ==== Proof.LibEdgeAgg.lean ====
import Idealize.ShloMosaic.PureOps
import Idealize.ShloMosaic.PureOps.Ideal
import Idealize.ShloMosaic.Lib.ValueIdx

noncomputable section

namespace EdgeAgg

open Idealize.ShloMosaic Idealize.ShloMosaic.ValueIdx
open scoped BigOperators

variable {α : Type}

abbrev lookupDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

def clampTo (N : Nat) (hN : 0 < N) {w : Nat} (v : BitVec w) : Fin N := ⟨min v.toInt.toNat (N - 1), by omega⟩

theorem lookup_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (rows : IVec ⟨2, ![P, 1]⟩ w) (e : Fin P) (q : Fin C) :
    Host.gather (lookupDims N C P wf) x rows (ix2 e q) = x (ix2 (clampTo N hN (rows (ix2 e (0 : Fin 1)))) q) := by
  unfold Host.gather
  congr 1
  funext a
  refine Fin.ext ?_
  match a with
  | ⟨0, _⟩ =>
    show (lookupDims N C P wf).start (ix2 e q) rows 0 + (lookupDims N C P wf).batchCoord (ix2 e q) 0
      + (lookupDims N C P wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims N C P wf).startIndexMap from List.mem_singleton.mpr rfl)]
    have hsi : (lookupDims N C P wf).siIdx (ix2 e q) ⟨List.idxOf (0 : Fin 2) (lookupDims N C P wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (lookupDims N C P wf).start (ix2 e q) rows 1 + (lookupDims N C P wf).batchCoord (ix2 e q) 1
      + (lookupDims N C P wf).offCoord (ix2 e q) 1 = q.val
    rw [GatherDims.batchCoord_eq_zero _ _ _ List.not_mem_nil]
    unfold GatherDims.start
    rw [dif_neg (show ¬ (1 : Fin 2) ∈ (lookupDims N C P wf).startIndexMap from
      (show ¬ (1 : Fin 2) ∈ ([0] : List (Fin 2)) by decide))]
    unfold GatherDims.offCoord
    rw [dif_pos (show (1 : Fin 2) ∈ (lookupDims N C P wf).sKept from
      (GatherDims.mem_sKept _ _).mpr ⟨(show ¬ (1 : Fin 2) ∈ ([0] : List (Fin 2)) by decide), List.not_mem_nil⟩)]
    simp only [Nat.zero_add, Nat.add_zero]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have ha := h a
      rw [← e']
      exact (Int.toNat_of_nonneg ha.1).symm
    · intro e
      congr 1
      funext a
      refine Fin.ext ?_
      show (d.start j idx a + (d.window j a : Int)).toNat = (i a).val
      rw [e a]
      exact Int.toNat_natCast _
  · rename_i h
    constructor
    · intro e; cases e
    · intro e
      exfalso
      refine h fun a => ?_
      rw [e a]
      exact ⟨Int.natCast_nonneg _, by exact_mod_cast (i a).isLt⟩

abbrev accumDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section Accum

variable {N C P w : Nat} (wf : ScatterDims.WF ⟨2, ![N, C]⟩ ⟨2, ![P, 1]⟩ ⟨2, ![P, C]⟩ [1] [0] [0] 1)
  (dst : IVec ⟨2, ![P, 1]⟩ w)

theorem accum_start_row (e : Fin P) (c : Fin C) :
    (accumDims N C P wf).start (ix2 e c) dst 0 = (dst (ix2 e (0 : Fin 1))).toInt := by
  unfold ScatterDims.start
  rw [dif_pos (show (0 : Fin 2) ∈ (accumDims N C P wf).scatterDimsToOperandDims from List.mem_singleton.mpr rfl)]
  congr 2
  funext b; refine Fin.ext ?_
  match b with
  | ⟨0, _⟩ => rfl
  | ⟨1, _⟩ => rfl

theorem accum_start_col (e : Fin P) (c : Fin C) : (accumDims N C P wf).start (ix2 e c) dst 1 = 0 := by
  unfold ScatterDims.start
  rw [dif_neg (show ¬ (1 : Fin 2) ∈ (accumDims N C P wf).scatterDimsToOperandDims from
    (show ¬ (1 : Fin 2) ∈ ([0] : List (Fin 2)) by decide))]

theorem accum_window_row (e : Fin P) (c : Fin C) : (accumDims N C P wf).window (ix2 e c) 0 = 0 := by
  unfold ScatterDims.window
  rw [dif_neg (show ¬ (0 : Fin 2) ∈ (accumDims N C P wf).sKept from by simp [ScatterDims.sKept, Shape.kept])]

theorem accum_window_col (e : Fin P) (c : Fin C) : (accumDims N C P wf).window (ix2 e c) 1 = c.val := by
  unfold ScatterDims.window
  rw [dif_pos (show (1 : Fin 2) ∈ (accumDims N C P wf).sKept from by simp [ScatterDims.sKept, Shape.kept])]
  rfl

theorem accum_lands_iff (e : Fin P) (c : Fin C) (n : Fin N) (q : Fin C) :
    (accumDims N C P wf).resultIdx? (ix2 e c) dst = some (ix2 n q)
      ↔ (dst (ix2 e (0 : Fin 1))).toInt = (n.val : Int) ∧ c = q := by
  rw [resultIdx?_eq_some_iff]
  constructor
  · intro h
    have h0 : (accumDims N C P wf).start (ix2 e c) dst 0 + ((accumDims N C P wf).window (ix2 e c) 0 : Int)
        = (n.val : Int) := h 0
    have h1 : (accumDims N C P wf).start (ix2 e c) dst 1 + ((accumDims N C P wf).window (ix2 e c) 1 : Int)
        = (q.val : Int) := h 1
    rw [accum_start_row, accum_window_row] at h0
    rw [accum_start_col, accum_window_col] at h1
    refine ⟨by simpa using h0, Fin.ext ?_⟩
    omega
  · rintro ⟨h0, rfl⟩ a
    match a with
    | ⟨0, _⟩ =>
      show (accumDims N C P wf).start (ix2 e c) dst 0 + ((accumDims N C P wf).window (ix2 e c) 0 : Int) = (n.val : Int)
      rw [accum_start_row, accum_window_row, h0]; simp
    | ⟨1, _⟩ =>
      show (accumDims N C P wf).start (ix2 e c) dst 1 + ((accumDims N C P wf).window (ix2 e c) 1 : Int) = (c.val : Int)
      rw [accum_start_col, accum_window_col]; simp

theorem accum_apply (acc : (⟨2, ![N, C]⟩ : Shape).Idx → EReal) (upd : (⟨2, ![P, C]⟩ : Shape).Idx → EReal)
    (n : Fin N) (q : Fin C) :
    Ideal.hostScatterAdd (accumDims N C P wf) acc dst upd (ix2 n q)
      = acc (ix2 n q) + ∑ e ∈ Finset.univ.filter (fun e : Fin P => (dst (ix2 e (0 : Fin 1))).toInt = (n.val : Int)),
          upd (ix2 e q) := by
  unfold Ideal.hostScatterAdd
  congr 1
  rw [Finset.sum_filter, sum_idx2, Finset.sum_filter]
  refine Finset.sum_congr rfl fun e _ => ?_
  by_cases he : (dst (ix2 e (0 : Fin 1))).toInt = (n.val : Int)
  · rw [if_pos he]
    rw [Finset.sum_eq_single q]
    · rw [if_pos ((accum_lands_iff wf dst e q n q).mpr ⟨he, rfl⟩)]
    · intro c _ hc
      rw [if_neg (fun h => hc ((accum_lands_iff wf dst e c n q).mp h).2)]
    · intro h; exact absurd (Finset.mem_univ q) h
  · rw [if_neg he]
    refine Finset.sum_eq_zero fun c _ => ?_
    rw [if_neg (fun h => he ((accum_lands_iff wf dst e c n q).mp h).1)]

end Accum

end EdgeAgg

end
-- ==== Proof.LibSegment1.lean ====
import Idealize.ShloMosaic.PureOps
import Idealize.ShloMosaic.PureOps.Ideal
import Idealize.ShloMosaic.Lib.ValueIdx
import Idealize.ShloMosaic.Lib.ValueIdxRank1
import proofs.«418940_j1529008358070_1_alg».proof.Proof.LibEdgeAgg

noncomputable section

namespace Segment1

open Idealize.ShloMosaic Idealize.ShloMosaic.ValueIdx
open scoped BigOperators

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev accumDims (N P : Nat) (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

variable {N P w : Nat} (wf : ScatterDims.WF ⟨1, ![N]⟩ ⟨2, ![P, 1]⟩ ⟨1, ![P]⟩ [] [0] [0] 1)
  (dst : IVec ⟨2, ![P, 1]⟩ w)

theorem accum_start (e : Fin P) :
    (accumDims N P wf).start (ix1 e) dst 0 = (dst (ix2 e (0 : Fin 1))).toInt := by
  unfold ScatterDims.start
  rw [dif_pos (show (0 : Fin 1) ∈ (accumDims N P wf).scatterDimsToOperandDims from List.mem_singleton.mpr rfl)]
  congr 2
  funext b; refine Fin.ext ?_
  match b with
  | ⟨0, _⟩ => rfl
  | ⟨1, _⟩ => rfl

theorem accum_window (e : Fin P) : (accumDims N P wf).window (ix1 e) 0 = 0 := by
  unfold ScatterDims.window
  rw [dif_neg (show ¬ (0 : Fin 1) ∈ (accumDims N P wf).sKept from by simp [ScatterDims.sKept, Shape.kept])]

theorem accum_lands_iff (e : Fin P) (n : Fin N) :
    (accumDims N P wf).resultIdx? (ix1 e) dst = some (ix1 n) ↔ (dst (ix2 e (0 : Fin 1))).toInt = (n.val : Int) := by
  rw [EdgeAgg.resultIdx?_eq_some_iff]
  constructor
  · intro h
    have h0 : (accumDims N P wf).start (ix1 e) dst 0 + ((accumDims N P wf).window (ix1 e) 0 : Int) = (n.val : Int) :=
      h 0
    rw [accum_start, accum_window] at h0
    simpa using h0
  · intro h0 a
    match a with
    | ⟨0, _⟩ =>
      show (accumDims N P wf).start (ix1 e) dst 0 + ((accumDims N P wf).window (ix1 e) 0 : Int) = (n.val : Int)
      rw [accum_start, accum_window, h0]; simp

theorem accum_apply (acc : (⟨1, ![N]⟩ : Shape).Idx → EReal) (upd : (⟨1, ![P]⟩ : Shape).Idx → EReal) (n : Fin N) :
    Ideal.hostScatterAdd (accumDims N P wf) acc dst upd (ix1 n)
      = acc (ix1 n) + ∑ e ∈ Finset.univ.filter (fun e : Fin P => (dst (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  by_cases he : (dst (ix2 e (0 : Fin 1))).toInt = (n.val : Int)
  · rw [if_pos he, if_pos ((accum_lands_iff wf dst e n).mpr he)]
  · rw [if_neg he, if_neg (fun h => he ((accum_lands_iff wf dst e n).mp h))]

end Segment1

end
-- ==== Proof.PoolBridge.lean ====
import proofs.«418940_j1529008358070_1_alg».proof.Proof.Gen.ReferenceIdeal
import proofs.«418940_j1529008358070_1_alg».proof.Proof.KMath
import proofs.«418940_j1529008358070_1_alg».proof.Proof.LibEdgeAgg
import proofs.«418940_j1529008358070_1_alg».proof.Proof.LibSegment1
import Idealize.ShloMosaic.PureOps.Ideal.Laws
import Idealize.ShloMosaic.Lib.IdealHost
import Idealize.ShloMosaic.Lib.Pipeline.Value

noncomputable section
namespace Cert.PoolBridge

open Idealize.ShloMosaic Idealize.ShloMosaic.ValueIdx Cert.ReferenceIdeal Cert.KMath
open scoped BigOperators

theorem toInt_eq_iff (v : BitVec 32) (g : Nat) (hg : g < 2 ^ 31) :
    v.toInt = (g : Int) ↔ v = BitVec.ofNat 32 g := by
  constructor
  · intro h
    rw [← BitVec.ofInt_toInt (x := v), h, BitVec.ofInt_natCast]
  · rintro rfl
    rw [BitVec.toInt_ofNat', Int.bmod_def]
    omega

theorem zeros_apply {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

theorem column_apply (batch : I S50000) (e : Fin 50000) :
    broadcastInDim S50000x1 ![0] Facts₀.bcast_S50000_S50000x1_0 batch (ix2 e (0 : Fin 1)) = batch (ix1 e) :=
  broadcastInDim_apply _ _ batch _ (ix1 e) (fun a => by
    have ha : a = 0 := Subsingleton.elim _ _
    subst ha
    rfl)

theorem ones_apply {T : Shape} (h : S_.BroadcastsInDim T ![]) (j : T.Idx) :
    broadcastInDim T ![] h (constant (F := Ideal) S_ .f32 0x3F800000#32) j = 1 := by
  rw [broadcastInDim_scalar_apply, constant_apply, Ideal.ofBits_one_f32]

theorem psum_at (batch : I S50000) (x : A S50000x64) (g d : Fin 64) :
    poolK (oneHot batch) x (ix2 g d) = Cert.Stages.graphSum (F := Ideal) batch x (ix2 g d) := by
  show _ = Ideal.hostScatterAdd (EdgeAgg.accumDims 64 64 50000 Facts₀.scatter_S64x64_S50000x1_S50000x64_1_0_0_1_wf) _ _ _ (ix2 g d)
  rw [EdgeAgg.accum_apply, zeros_apply, zero_add, Finset.sum_filter]
  show ∑ n : Fin 50000, (if batch (ix1 n) = BitVec.ofNat 32 g.val then (1 : EReal) else 0) * x (ix2 n d) = _
  refine Finset.sum_congr rfl fun n _ => ?_
  rw [column_apply]
  by_cases h : batch (ix1 n) = BitVec.ofNat 32 g.val
  · rw [if_pos h, if_pos ((toInt_eq_iff _ _ (by have := g.isLt; omega)).mpr h), one_mul]
  · rw [if_neg h, if_neg (fun h' => h ((toInt_eq_iff _ _ (by have := g.isLt; omega)).mp h')), zero_mul]

theorem psum_eq (batch : I S50000) (x : A S50000x64) :
    poolK (oneHot batch) x = Cert.Stages.graphSum (F := Ideal) batch x := by
  funext i
  rw [eq_ix2 i]
  exact psum_at batch x (i 0) (i 1)

theorem count_at (batch : I S50000) (g : Fin 64) :
    countK batch (ix1 g) = Cert.Stages.count (F := Ideal) batch (ix1 g) := by
  show _ = Ideal.hostScatterAdd (Segment1.accumDims 64 50000 Facts₀.scatter_S64_S50000x1_S50000_n_0_0_1_wf) _ _ _ (ix1 g)
  rw [Segment1.accum_apply, zeros_apply, zero_add, Finset.sum_filter]
  show ∑ n : Fin 50000, (if batch (ix1 n) = BitVec.ofNat 32 g.val then (1 : EReal) else 0) = _
  refine Finset.sum_congr rfl fun n _ => ?_
  rw [column_apply, ones_apply]
  by_cases h : batch (ix1 n) = BitVec.ofNat 32 g.val
  · rw [if_pos h, if_pos ((toInt_eq_iff _ _ (by have := g.isLt; omega)).mpr h)]
  · rw [if_neg h, if_neg (fun h' => h ((toInt_eq_iff _ _ (by have := g.isLt; omega)).mp h'))]

theorem count_eq (batch : I S50000) : countK batch = Cert.Stages.count (F := Ideal) batch := by
  funext g
  rw [eq_ix1 g]
  exact count_at batch (g 0)

end Cert.PoolBridge
end
-- ==== Proof.RealAlg.lean ====
import Idealize.ShloMosaic.PureOps.Ideal.Laws
import Idealize.ShloMosaic.Lib.ValueIdx
import Idealize.ShloMosaic.Lib.IdealHost

noncomputable section

namespace Cert.RealAlg

open Idealize.ShloMosaic
open scoped BigOperators

def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩

theorem isR_add {x y : EReal} (hx : IsR x) (hy : IsR y) : IsR (x + y) := by
  obtain ⟨a, rfl⟩ := hx
  obtain ⟨b, rfl⟩ := hy
  exact ⟨a + b, (EReal.coe_add a b).symm⟩

theorem isR_sub {x y : EReal} (hx : IsR x) (hy : IsR y) : IsR (x - y) := by
  obtain ⟨a, rfl⟩ := hx
  obtain ⟨b, rfl⟩ := hy
  exact ⟨a - b, (EReal.coe_sub a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem isR_max {x y : EReal} (hx : IsR x) (hy : IsR y) : IsR (max x y) := by
  obtain ⟨a, rfl⟩ := hx
  obtain ⟨b, rfl⟩ := hy
  exact ⟨max a b, coe_max a b⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (h a (Finset.mem_insert_self a s)) (ih fun i hi => h i (Finset.mem_insert_of_mem hi))

theorem isR_div_coe {y : ℝ} (hy : y ≠ 0) {x : EReal} (hx : IsR x) : IsR (Ideal.div x (y : EReal)) := by
  rw [Ideal.div_coe hy]
  exact isR_mul hx (isR_coe _)

theorem isR_rsqrt {r : ℝ} (hr : 0 < r) : IsR (Ideal.rsqrt (r : EReal)) := by
  rw [Ideal.rsqrt_coe, if_neg (not_lt.mpr hr.le), if_neg hr.ne']
  exact isR_coe _

theorem ofBits_nodes : Ideal.ofBits .f32 0x47435000#32 = ((50000 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

theorem isR_invSqrtOrZero (d : EReal) :
    IsR (Scalar.select (Ideal.cmp .ogt d (Ideal.ofBits .f32 0x00000000#32))
      (Ideal.pow d (Ideal.ofBits .f32 0xBF000000#32)) (Ideal.ofBits .f32 0x00000000#32)) := by
  rw [Ideal.ofBits_zero_f32, ofBits_neg_half]
  induction d using EReal.rec with
  | bot =>
    have h : Ideal.cmp .ogt (⊥ : EReal) 0 = 0#1 := by simp [Ideal.cmp]
    rw [h, ValueIdx.select_zero]
    exact isR_zero
  | top =>
    have h : Ideal.cmp .ogt (⊤ : EReal) 0 = 1#1 := by simp [Ideal.cmp]
    rw [h, ValueIdx.select_one, Ideal.pow_top]
    have h1 : ¬ (0 : EReal) < ((-(1 / 2) : ℝ) : EReal) := by
      rw [EReal.coe_pos]; norm_num
    have h2 : ¬ ((-(1 / 2) : ℝ) : EReal) = 0 := by
      rw [EReal.coe_eq_zero]; norm_num
    rw [if_neg h1, if_neg h2]
    exact isR_zero
  | coe r =>
    by_cases hr : 0 < r
    · have h : Ideal.cmp .ogt (r : EReal) 0 = 1#1 := by simp [Ideal.cmp, hr]
      rw [h, ValueIdx.select_one, Ideal.pow_coe_coe]
      exact isR_coe _
    · have h : Ideal.cmp .ogt (r : EReal) 0 = 0#1 := by simp [Ideal.cmp, hr]
      rw [h, ValueIdx.select_zero]
      exact isR_zero

theorem var_identity {ι : Type} [Fintype ι] (r : ι → ℝ) (N : ℝ) (hN : N ≠ 0) (hcard : (Fintype.card ι : ℝ) = N) :
    (∑ i, r i * r i) * (1 / N) - ((∑ i, r i) * (1 / N)) * ((∑ i, r i) * (1 / N))
      = (∑ i, (r i - (∑ j, r j) * (1 / N)) * (r i - (∑ j, r j) * (1 / N))) * (1 / N) := by
  set S : ℝ := ∑ i, r i with hS
  set m : ℝ := S * (1 / N) with hm
  have hterm : ∀ i, (r i - m) * (r i - m) = r i * r i - (2 * m) * r i + m * m := fun i => by ring
  have hsum : ∑ i, (r i - m) * (r i - m) = (∑ i, r i * r i) - (2 * m) * S + N * (m * m) := by
    simp_rw [hterm]
    rw [Finset.sum_add_distrib, Finset.sum_sub_distrib, ← Finset.mul_sum, Finset.sum_const, Finset.card_univ,
      nsmul_eq_mul, hcard]
  rw [hsum, hm]
  field_simp
  ring

theorem var_nonneg {ι : Type} [Fintype ι] (r : ι → ℝ) (m N : ℝ) (hN : 0 < N) :
    0 ≤ (∑ i, (r i - m) * (r i - m)) * (1 / N) :=
  mul_nonneg (Finset.sum_nonneg fun i _ => mul_self_nonneg _) (by positivity)

def AllR {S : Shape} (v : S.Idx → EReal) : Prop := ∀ i, IsR (v i)

theorem allR_bcast {s t : Shape} (dims : Fin s.rank → Fin t.rank) (h : s.BroadcastsInDim t dims) {x : s.Idx → EReal}
    (hx : AllR x) : AllR (broadcastInDim t dims h x) := fun _ => hx _

theorem allR_const_zero (s : Shape) : AllR (constant (F := Ideal) s .f32 0x00000000#32) := fun _ => by
  show IsR (Ideal.ofBits .f32 0x00000000#32)
  rw [Ideal.ofBits_zero_f32]
  exact isR_zero

theorem allR_mulf {s : Shape} {a b : FVec Ideal s .f32} (ha : AllR a) (hb : AllR b) : AllR (mulf a b) :=
  fun i => isR_mul (ha i) (hb i)

theorem allR_addf {s : Shape} {a b : FVec Ideal s .f32} (ha : AllR a) (hb : AllR b) : AllR (addf a b) :=
  fun i => isR_add (ha i) (hb i)

theorem allR_gather {s si t : Shape} {w : Nat} (d : GatherDims s si t) {x : s.Idx → EReal} (idx : IVec si w)
    (hx : AllR x) : AllR (Host.gather d x idx) := fun _ => hx _

theorem allR_scatterAdd {s si su : Shape} {w : Nat} (d : ScatterDims s si su) {x : FVec Ideal s .f32} (idx : IVec si w)
    {upd : FVec Ideal su .f32} (hx : AllR x) (hu : AllR upd) : AllR (Host.scatterAdd d x idx upd) :=
  fun i => isR_add (hx i) (isR_sum _ _ fun j _ => hu j)

theorem allR_dotGeneral {sl sr so : Shape} (d : DotDims sl sr so) (prec : Option ContractPrecision)
    {l : FVec Ideal sl .f32} {r : FVec Ideal sr .f32} (hl : AllR l) (hr : AllR r) :
    AllR (Host.dotGeneral d prec l r) := fun j => by
  show IsR (FloatOps.dotGeneral d prec .single l r j)
  rw [Ideal.dotGeneral_apply]
  exact isR_sum _ _ fun k _ => isR_mul (hl _) (hr _)

theorem bcast_const {T : Shape} (h : (⟨0, ![]⟩ : Shape).BroadcastsInDim T ![]) (w : BitVec 32) (j : T.Idx) :
    broadcastInDim T ![] h (constant (F := Ideal) ⟨0, ![]⟩ .f32 w) j = Ideal.ofBits .f32 w := rfl

theorem allR_invSqrtOrZero {T : Shape} (h : (⟨0, ![]⟩ : Shape).BroadcastsInDim T ![]) (d : FVec Ideal T .f32) :
    AllR (select (cmpf .ogt d (broadcastInDim T ![] h (constant (F := Ideal) ⟨0, ![]⟩ .f32 0x00000000#32)))
      (Host.powf d (broadcastInDim T ![] h (constant (F := Ideal) ⟨0, ![]⟩ .f32 0xBF000000#32)))
      (broadcastInDim T ![] h (id (constant (F := Ideal) ⟨0, ![]⟩ .f32 0x00000000#32)))) :=
  fun j => isR_invSqrtOrZero (d j)

theorem varDen_eq :
    Ideal.ofBits .f32 0x47435000#32 - ((((0#32 : BitVec 32).toInt : ℤ) : ℝ) : EReal) = ((50000 : ℝ) : EReal) := by
  rw [ofBits_nodes, BitVec.toInt_zero, Int.cast_zero, EReal.coe_zero, sub_zero]

theorem varGuard :
    Ideal.cmp .ogt (Ideal.ofBits .f32 0x47435000#32 - ((((0#32 : BitVec 32).toInt : ℤ) : ℝ) : EReal))
      (Ideal.ofBits .f32 0x00000000#32) = 1#1 := by
  rw [varDen_eq, Ideal.ofBits_zero_f32]
  have h : (0 : EReal) < ((50000 : ℝ) : EReal) := by rw [EReal.coe_pos]; norm_num
  simp [Ideal.cmp, h]

theorem var_core {ι : Type} [Fintype ι] (hc : Fintype.card ι = 50000) (X : ι → EReal) (ρ : ι → ℝ)
    (hX : ∀ n, X n = (ρ n : EReal)) :
    ∃ v : ℝ, 0 ≤ v
      ∧ Ideal.div (∑ n, X n * X n) (Ideal.ofBits .f32 0x47435000#32)
          - Ideal.div (∑ n, X n) (Ideal.ofBits .f32 0x47435000#32) * Ideal.div (∑ n, X n) (Ideal.ofBits .f32 0x47435000#32)
        = (v : EReal)
      ∧ Ideal.div (∑ n, (X n - Ideal.div (∑ m, X m) (Ideal.ofBits .f32 0x47435000#32))
            * (X n - Ideal.div (∑ m, X m) (Ideal.ofBits .f32 0x47435000#32)))
          (Ideal.ofBits .f32 0x47435000#32 - ((((0#32 : BitVec 32).toInt : ℤ) : ℝ) : EReal))
        = (v : EReal) := by
  have hN : (50000 : ℝ) ≠ 0 := by norm_num
  have hS : ∑ n, X n = ((∑ n, ρ n : ℝ) : EReal) := by
    rw [coe_sum]; exact Finset.sum_congr rfl fun n _ => hX n
  have hS2 : ∑ n, X n * X n = ((∑ n, ρ n * ρ n : ℝ) : EReal) := by
    rw [coe_sum]; exact Finset.sum_congr rfl fun n _ => by rw [hX n, EReal.coe_mul]
  have hM : Ideal.div (∑ n, X n) (Ideal.ofBits .f32 0x47435000#32) = (((∑ n, ρ n) * (1 / 50000) : ℝ) : EReal) := by
    rw [ofBits_nodes, Ideal.div_coe hN, hS, ← EReal.coe_mul]
  have hD : ∑ n, (X n - Ideal.div (∑ m, X m) (Ideal.ofBits .f32 0x47435000#32))
        * (X n - Ideal.div (∑ m, X m) (Ideal.ofBits .f32 0x47435000#32))
      = ((∑ n, (ρ n - (∑ m, ρ m) * (1 / 50000)) * (ρ n - (∑ m, ρ m) * (1 / 50000)) : ℝ) : EReal) := by
    rw [coe_sum]
    exact Finset.sum_congr rfl fun n _ => by rw [hM, hX n, ← EReal.coe_sub, ← EReal.coe_mul]
  refine ⟨(∑ n, (ρ n - (∑ m, ρ m) * (1 / 50000)) * (ρ n - (∑ m, ρ m) * (1 / 50000))) * (1 / 50000),
    var_nonneg ρ _ 50000 (by norm_num), ?_, ?_⟩
  · rw [hM, ofBits_nodes, Ideal.div_coe hN, hS2, ← EReal.coe_mul, ← EReal.coe_mul, ← EReal.coe_sub,
      var_identity ρ 50000 hN (by rw [hc]; norm_num)]
  · rw [varDen_eq, Ideal.div_coe hN, hD, ← EReal.coe_mul]

theorem isR_normEntry {g x m bt : EReal} (hg : IsR g) (hx : IsR x) (hm : IsR m) (hbt : IsR bt) {v e : ℝ} (hv : 0 ≤ v)
    (he : 0 < e) : IsR (max (g * (x - m) * Ideal.rsqrt ((v : EReal) + (e : EReal)) + bt) 0) := by
  rw [← EReal.coe_add]
  exact isR_max (isR_add (isR_mul (isR_mul hg (isR_sub hx hm)) (isR_rsqrt (by linarith))) hbt) isR_zero

end Cert.RealAlg

end
-- ==== Proof.Bridge.lean ====
import proofs.«418940_j1529008358070_1_alg».proof.Proof.Gen.ReferenceIdeal
import proofs.«418940_j1529008358070_1_alg».proof.Proof.KMath
import proofs.«418940_j1529008358070_1_alg».proof.Proof.PoolBridge
import proofs.«418940_j1529008358070_1_alg».proof.Proof.RealAlg
import Idealize.ShloMosaic.PureOps.Ideal.Laws
import Idealize.ShloMosaic.Lib.ValueIdx
import Idealize.ShloMosaic.Lib.IdealHost

noncomputable section

namespace Cert.Bridge

open Idealize.ShloMosaic Idealize.ShloMosaic.ValueIdx Cert.ReferenceIdeal Cert.KMath Cert.RealAlg
open scoped BigOperators

theorem isReal_of {x : EReal} (h : IsR x) : IsReal x := h
theorem allReal_of {S : Shape} {v : A S} (h : AllR v) : AllReal v := h
theorem allR_of {S : Shape} {v : A S} (h : AllReal v) : AllR v := h

theorem dinv_real (d : A S50000) : AllR (Cert.Stages.dinv (F := Ideal) d) := by
  unfold Cert.Stages.dinv
  exact allR_invSqrtOrZero _ d

theorem edgeWeight_real (src dst : I S850000) : AllReal (Cert.Stages.edgeWeight (F := Ideal) src dst) := by
  unfold Cert.Stages.edgeWeight
  exact allReal_of (allR_mulf (allR_gather _ _ (dinv_real _)) (allR_gather _ _ (dinv_real _)))

theorem project1_real (x : A S50000x1) (W : A S1x64) (hx : AllReal x) (hW : AllReal W) :
    AllReal (Cert.Stages.project1 (F := Ideal) x W) := by
  unfold Cert.Stages.project1
  exact allReal_of (allR_dotGeneral _ _ (allR_of hx) (allR_of hW))

theorem project_real (x : A S50000x64) (W : A S64x64) (hx : AllReal x) (hW : AllReal W) :
    AllReal (Cert.Stages.project (F := Ideal) x W) := by
  unfold Cert.Stages.project
  exact allReal_of (allR_dotGeneral _ _ (allR_of hx) (allR_of hW))

theorem aggregate_real (src dst : I S850000) (nrm : A S850000) (h : A S50000x64) (hh : AllReal h) (hn : AllReal nrm) :
    AllReal (Cert.Stages.aggregate (F := Ideal) src dst nrm h) := by
  unfold Cert.Stages.aggregate
  exact allReal_of (allR_scatterAdd _ _ (allR_bcast _ _ (allR_const_zero _))
    (allR_mulf (allR_gather _ _ (allR_of hh)) (allR_bcast _ _ (allR_bcast _ _ (allR_of hn)))))

theorem biased_real (agg : A S50000x64) (b : A S64) (ha : AllReal agg) (hb : AllReal b) :
    AllReal (Cert.Stages.biased (F := Ideal) agg b) := by
  unfold Cert.Stages.biased Cert.Stages.rows
  exact allReal_of (allR_addf (allR_of ha) (allR_bcast _ _ (allR_bcast _ _ (allR_of hb))))

theorem rows_apply (v : A S64) (n : Fin 50000) (q : Fin 64) : Cert.Stages.rows (F := Ideal) v (ix2 n q) = v (ix1 q) := by
  show v _ = v _
  refine congrArg v (funext fun a => Fin.ext ?_)
  match a with
  | ⟨0, _⟩ => rfl

theorem red0 : S50000x64.Reduces [0] S64 := by decide

theorem lift_eq (q : Fin 64) (k : Fin 50000) : red0.lift (ix1 q) k = ix2 k q := by
  funext a
  refine Fin.ext ?_
  match a with
  | ⟨0, _⟩ => rfl
  | ⟨1, _⟩ => rfl

theorem colsum_apply (h' : S50000x64.ReducesTo [0] S64) (x : A S50000x64) (q : Fin 64) :
    Ideal.hostReduceAdd h' x (Ideal.ofBits .f32 0x00000000#32) (ix1 q) = ∑ n : Fin 50000, x (ix2 n q) := by
  rw [Ideal.hostReduceAdd_single h' red0, Ideal.ofBits_zero_f32, zero_add]
  exact Finset.sum_congr rfl fun k _ => congrArg x (lift_eq q k)

theorem mean_apply (x : A S50000x64) (q : Fin 64) :
    Cert.Stages.mean (F := Ideal) x (ix1 q)
      = Ideal.div (∑ n : Fin 50000, x (ix2 n q)) (Ideal.ofBits .f32 0x47435000#32) := by
  unfold Cert.Stages.mean
  rw [hostDivf_apply, hostReduceAdd_apply, constant_apply, colsum_apply, bcast_const]

theorem rowsDiv_apply (h2 : S1x64.BroadcastsInDim S50000x64 ![0, 1]) (h1 : S64.BroadcastsInDim S1x64 ![1])
    (h0 : S_.BroadcastsInDim S1x64 ![]) (R : A S64) (n : Fin 50000) (q : Fin 64) :
    broadcastInDim S50000x64 ![0, 1] h2
        (Host.divf (broadcastInDim S1x64 ![1] h1 R) (broadcastInDim S1x64 ![] h0 (constant (F := Ideal) S_ .f32 0x47435000#32)))
        (ix2 n q)
      = Ideal.div (R (ix1 q)) (Ideal.ofBits .f32 0x47435000#32) := by
  show Ideal.div (R _) (Ideal.ofBits .f32 0x47435000#32) = Ideal.div (R _) _
  refine congrArg (fun k => Ideal.div (R k) (Ideal.ofBits .f32 0x47435000#32)) (funext fun a => Fin.ext ?_)
  match a with
  | ⟨0, _⟩ => rfl

theorem varDen_apply (k : S_.Idx) :
    Cert.Stages.varDen (F := Ideal) k
      = Ideal.ofBits .f32 0x47435000#32 - ((((0#32 : BitVec 32).toInt : ℤ) : ℝ) : EReal) := rfl

theorem guard_apply (h : S_.BroadcastsInDim S64 ![]) (q : Fin 64) :
    broadcastInDim S64 ![] h (cmpf (F := Ideal) .ogt (Cert.Stages.varDen (F := Ideal) : FVec Ideal S_ .f32) (constant S_ .f32 0x00000000#32)) (ix1 q)
      = 1#1 := by
  rw [broadcastInDim_scalar_apply, cmpf_apply, varDen_apply, constant_apply, Ideal.cmpf_def]
  exact varGuard

theorem variance_apply (x : A S50000x64) (q : Fin 64) :
    Cert.Stages.variance (F := Ideal) x (ix1 q)
      = Ideal.div (∑ n : Fin 50000,
            (x (ix2 n q) - Ideal.div (∑ m : Fin 50000, x (ix2 m q)) (Ideal.ofBits .f32 0x47435000#32))
              * (x (ix2 n q) - Ideal.div (∑ m : Fin 50000, x (ix2 m q)) (Ideal.ofBits .f32 0x47435000#32)))
          (Ideal.ofBits .f32 0x47435000#32 - ((((0#32 : BitVec 32).toInt : ℤ) : ℝ) : EReal)) := by
  unfold Cert.Stages.variance
  rw [select_apply, guard_apply, select_one, hostDivf_apply, hostReduceAdd_apply, constant_apply, colsum_apply,
    broadcastInDim_scalar_apply, varDen_apply]
  simp only [mulf_apply, subf_apply]
  conv_lhs =>
    arg 1
    arg 2
    ext n
    rw [rowsDiv_apply, hostReduceAdd_apply, constant_apply, colsum_apply]

theorem hostRsqrt_apply {s : Shape} (a : FVec Ideal s .f32) (i : s.Idx) : Host.rsqrt a i = Ideal.rsqrt (a i) := rfl

theorem normRelu_apply (x : A S50000x64) (g bt : A S64) (n : Fin 50000) (q : Fin 64) :
    Cert.Stages.normRelu (F := Ideal) x g bt (ix2 n q)
      = max (g (ix1 q) * (x (ix2 n q) - Cert.Stages.mean (F := Ideal) x (ix1 q))
          * Ideal.rsqrt (Cert.Stages.variance (F := Ideal) x (ix1 q) + Ideal.ofBits .f32 0x3727C5AC#32) + bt (ix1 q)) 0 := by
  unfold Cert.Stages.normRelu
  rw [maximumf_apply, addf_apply, mulf_apply, mulf_apply, subf_apply, rows_apply, rows_apply, rows_apply, rows_apply,
    bcast_const, Ideal.ofBits_zero_f32, hostRsqrt_apply, addf_apply, bcast_const]

theorem norm_eq (x : A S50000x64) (g bt : A S64) (hx : AllReal x) (hg : AllReal g) (hbt : AllReal bt)
    (n : Fin 50000) (q : Fin 64) :
    max (g (ix1 q) * (x (ix2 n q) - meanK (colSum x) (ix2 0 q))
        * Ideal.rsqrt (varK (colSum x) (colSum fun i => x i * x i) (ix2 0 q) + epsBN) + bt (ix1 q)) 0
      = Cert.Stages.normRelu (F := Ideal) x g bt (ix2 n q)
    ∧ IsReal (Cert.Stages.normRelu (F := Ideal) x g bt (ix2 n q)) := by
  have hx' : ∀ i, ∃ r : ℝ, x i = (r : EReal) := hx
  choose r hr using hx'
  obtain ⟨v, hv, hk, hs⟩ := var_core (Fintype.card_fin 50000) (fun n => x (ix2 n q)) (fun n => r (ix2 n q))
    (fun n => hr (ix2 n q))
  obtain ⟨e, he, hee⟩ := ofBits_eps
  have hmean : meanK (colSum x) (ix2 0 q)
      = Ideal.div (∑ n : Fin 50000, x (ix2 n q)) (Ideal.ofBits .f32 0x47435000#32) := rfl
  have hvarK : varK (colSum x) (colSum fun i => x i * x i) (ix2 0 q) = (v : EReal) := hk
  have hvarS : Cert.Stages.variance (F := Ideal) x (ix1 q) = (v : EReal) := by
    rw [variance_apply]; exact hs
  have hM : IsR (Ideal.div (∑ n : Fin 50000, x (ix2 n q)) (Ideal.ofBits .f32 0x47435000#32)) := by
    rw [ofBits_nodes]
    exact isR_div_coe (by norm_num) (isR_sum _ _ fun n _ => hx _)
  rw [normRelu_apply, mean_apply, hvarS, hmean, hvarK]
  unfold epsBN
  rw [hee]
  exact ⟨rfl, isReal_of (isR_normEntry (hg _) (hx _) hM (hbt _) hv he)⟩

theorem layer_eq (src dst : I S850000) (nrm : A S850000) (h : A S50000x64) (b g bt : A S64)
    (hh : AllReal h) (hn : AllReal nrm) (hb : AllReal b) (hg : AllReal g) (hbt : AllReal bt) :
    layerK src dst nrm h b g bt = Cert.Stages.layer (F := Ideal) src dst nrm h b g bt
    ∧ AllReal (Cert.Stages.layer (F := Ideal) src dst nrm h b g bt) := by
  have hx := biased_real _ b (aggregate_real src dst nrm h hh hn) hb
  unfold layerK normReluK sum1 sum2 Cert.Stages.layer
  generalize Cert.Stages.biased (F := Ideal) (Cert.Stages.aggregate (F := Ideal) src dst nrm h) b = x at hx ⊢
  refine ⟨funext fun i => ?_, fun i => ?_⟩
  · obtain ⟨n, q, rfl⟩ : ∃ n q, i = ix2 n q := ⟨i 0, i 1, eq_ix2 i⟩
    exact (norm_eq x g bt hx hg hbt n q).1
  · obtain ⟨n, q, rfl⟩ : ∃ n q, i = ix2 n q := ⟨i 0, i 1, eq_ix2 i⟩
    exact (norm_eq x g bt hx hg hbt n q).2

theorem net_eq (x : A S50000x1) (ei : I S2x800000) (batch : I S50000)
    (W1 : A S1x64) (b1 g1 bt1 : A S64) (W2 : A S64x64) (b2 g2 bt2 : A S64)
    (W3 : A S64x64) (b3 g3 bt3 : A S64) (W4 : A S64x64) (b4 g4 bt4 : A S64)
    (fw1 : A S128x64) (fb1 : A S128) (fw2 : A S10x128) (fb2 : A S10)
    (hx : AllReal x) (hW1 : AllReal W1) (hb1 : AllReal b1) (hg1 : AllReal g1) (hbt1 : AllReal bt1)
    (hW2 : AllReal W2) (hb2 : AllReal b2) (hg2 : AllReal g2) (hbt2 : AllReal bt2)
    (hW3 : AllReal W3) (hb3 : AllReal b3) (hg3 : AllReal g3) (hbt3 : AllReal bt3)
    (hW4 : AllReal W4) (hb4 : AllReal b4) (hg4 : AllReal g4) (hbt4 : AllReal bt4) :
    netK x ei batch W1 b1 g1 bt1 W2 b2 g2 bt2 W3 b3 g3 bt3 W4 b4 g4 bt4 fw1 fb1 fw2 fb2
      = Cert.Stages.net (F := Ideal) x ei batch W1 b1 g1 bt1 W2 b2 g2 bt2 W3 b3 g3 bt3 W4 b4 g4 bt4 fw1 fb1 fw2 fb2 := by
  have hn := edgeWeight_real (Cert.Stages.endpoints0 (F := Ideal) ei) (Cert.Stages.endpoints1 (F := Ideal) ei)
  obtain ⟨e1, r1⟩ := layer_eq (Cert.Stages.endpoints0 (F := Ideal) ei) (Cert.Stages.endpoints1 (F := Ideal) ei) _ _ b1 g1 bt1
    (project1_real x W1 hx hW1) hn hb1 hg1 hbt1
  obtain ⟨e2, r2⟩ := layer_eq (Cert.Stages.endpoints0 (F := Ideal) ei) (Cert.Stages.endpoints1 (F := Ideal) ei) _ _ b2 g2 bt2
    (project_real _ W2 r1 hW2) hn hb2 hg2 hbt2
  obtain ⟨e3, r3⟩ := layer_eq (Cert.Stages.endpoints0 (F := Ideal) ei) (Cert.Stages.endpoints1 (F := Ideal) ei) _ _ b3 g3 bt3
    (project_real _ W3 r2 hW3) hn hb3 hg3 hbt3
  obtain ⟨e4, _⟩ := layer_eq (Cert.Stages.endpoints0 (F := Ideal) ei) (Cert.Stages.endpoints1 (F := Ideal) ei) _ _ b4 g4 bt4
    (project_real _ W4 r3 hW4) hn hb4 hg4 hbt4
  unfold netK Cert.Stages.net
  dsimp only
  rw [e1, e2, e3, e4, Cert.PoolBridge.psum_eq, Cert.PoolBridge.count_eq]

end Cert.Bridge
end
-- ==== Proof.PreReal.lean ====
import proofs.«418940_j1529008358070_1_alg».proof.Defs
import proofs.«418940_j1529008358070_1_alg».proof.Proof.Gen.Pre_finite_inputs
import proofs.«418940_j1529008358070_1_alg».proof.Proof.KMath
import Idealize.ShloMosaic.Lib.ReduceAll

noncomputable section

namespace Cert.PreReal

section Decode

open Idealize.ShloMosaic Cert.Pre_finite_inputs Cert.KMath

variable [Cert.Pre_finite_inputs.Facts]

instance : Subsingleton S_.Idx := ⟨fun a b => funext fun d => d.elim0⟩

theorem inf_eq : Ideal.ofBits .f32 0x7F800000#32 = (⊤ : EReal) := by
  simp [Ideal.ofBits, Ideal.ieee]

theorem isReal_of_abs_lt (x : EReal)
    (h : Ideal.cmp .olt (max x (-x)) (Ideal.ofBits .f32 0x7F800000#32) = 1#1) : IsReal x := by
  rw [inf_eq] at h
  induction x using EReal.rec with
  | bot => simp [Ideal.cmp] at h
  | top => simp [Ideal.cmp] at h
  | coe r => exact ⟨r, rfl⟩

theorem allReal_of_all {S : Shape} {axes : List (Fin S.rank)} (x : FVec Ideal S .f32)
    (hb : S_.BroadcastsInDim S (![] : Fin 0 → Fin S.rank)) (hr : S.ReducesTo axes S_) (h0 : 0 < S_.numel) (j : S_.Idx)
    (e : Host.reduce IntOp.andi (cmpf .olt (Host.absf x) (broadcastInDim S ![] hb (constant S_ .f32 0x7F800000#32)))
      (constantI S_ 1 1#1) hr h0 j = 1#1) :
    AllReal x := by
  intro i
  have hi := Host.reduce_andi_all _ _ hr h0 j e i
  exact isReal_of_abs_lt (x i) hi

theorem fn_decode
    (a0 : FVec Ideal S50000x1 .f32) (a1 : IVec S2x800000 32) (a2 : IVec S50000 32) (a3 : FVec Ideal S1x64 .f32)
    (a4 : FVec Ideal S64 .f32) (a5 : FVec Ideal S64 .f32) (a6 : FVec Ideal S64 .f32) (a7 : FVec Ideal S64x64 .f32)
    (a8 : FVec Ideal S64 .f32) (a9 : FVec Ideal S64 .f32) (a10 : FVec Ideal S64 .f32) (a11 : FVec Ideal S64x64 .f32)
    (a12 : FVec Ideal S64 .f32) (a13 : FVec Ideal S64 .f32) (a14 : FVec Ideal S64 .f32) (a15 : FVec Ideal S64x64 .f32)
    (a16 : FVec Ideal S64 .f32) (a17 : FVec Ideal S64 .f32) (a18 : FVec Ideal S64 .f32) (a19 : FVec Ideal S128x64 .f32)
    (a20 : FVec Ideal S128 .f32) (a21 : FVec Ideal S10x128 .f32) (a22 : FVec Ideal S10 .f32)
    (h : fn (F := Ideal) a0 a1 a2 a3 a4 a5 a6 a7 a8 a9 a10 a11 a12 a13 a14 a15 a16 a17 a18 a19 a20 a21 a22 = fun _ => 1#1) :
    AllReal a0 ∧ AllReal a3 ∧ AllReal a4 ∧ AllReal a5 ∧ AllReal a6 ∧ AllReal a7
    ∧ AllReal a8 ∧ AllReal a9 ∧ AllReal a10 ∧ AllReal a11 ∧ AllReal a12 ∧ AllReal a13
    ∧ AllReal a14 ∧ AllReal a15 ∧ AllReal a16 ∧ AllReal a17 ∧ AllReal a18 := by
  have h0 := congrFun h (fun d => d.elim0)
  dsimp only [fn, fn_part1, fn_part2, fn_part3, fn_part4, fn_part5, fn_part6, andi] at h0
  simp only [IntOp.andi_eq_one, and_assoc] at h0
  obtain ⟨e0, e3, e4, e5, e6, e7, e8, e9, e10, e11, e12, e13, e14, e15, e16, e17, e18, e19, e20, e21, e22⟩ := h0
  exact ⟨allReal_of_all _ _ _ _ _ e0,
    allReal_of_all _ _ _ _ _ e3,
    allReal_of_all _ _ _ _ _ e4,
    allReal_of_all _ _ _ _ _ e5,
    allReal_of_all _ _ _ _ _ e6,
    allReal_of_all _ _ _ _ _ e7,
    allReal_of_all _ _ _ _ _ e8,
    allReal_of_all _ _ _ _ _ e9,
    allReal_of_all _ _ _ _ _ e10,
    allReal_of_all _ _ _ _ _ e11,
    allReal_of_all _ _ _ _ _ e12,
    allReal_of_all _ _ _ _ _ e13,
    allReal_of_all _ _ _ _ _ e14,
    allReal_of_all _ _ _ _ _ e15,
    allReal_of_all _ _ _ _ _ e16,
    allReal_of_all _ _ _ _ _ e17,
    allReal_of_all _ _ _ _ _ e18⟩

end Decode

open Idealize.ShloMosaic Idealize.ShloMosaic.TcCoe Idealize.SL.Sem Cert.KernelIdeal Cert.KMath

theorem of_pre (m : (ℓ : Loc nD τ sig) → Buf (Elt Ideal) ℓ) (h : Cert.Pre_KernelIdeal m) (c : Dev nD) :
    AllReal (m ((c.tc : Thread nD τ).loc main_arg0))
    ∧ AllReal (m ((c.tc : Thread nD τ).loc main_arg3))
    ∧ AllReal (m ((c.tc : Thread nD τ).loc main_arg4))
    ∧ AllReal (m ((c.tc : Thread nD τ).loc main_arg5))
    ∧ AllReal (m ((c.tc : Thread nD τ).loc main_arg6))
    ∧ AllReal (m ((c.tc : Thread nD τ).loc main_arg7))
    ∧ AllReal (m ((c.tc : Thread nD τ).loc main_arg8))
    ∧ AllReal (m ((c.tc : Thread nD τ).loc main_arg9))
    ∧ AllReal (m ((c.tc : Thread nD τ).loc main_arg10))
    ∧ AllReal (m ((c.tc : Thread nD τ).loc main_arg11))
    ∧ AllReal (m ((c.tc : Thread nD τ).loc main_arg12))
    ∧ AllReal (m ((c.tc : Thread nD τ).loc main_arg13))
    ∧ AllReal (m ((c.tc : Thread nD τ).loc main_arg14))
    ∧ AllReal (m ((c.tc : Thread nD τ).loc main_arg15))
    ∧ AllReal (m ((c.tc : Thread nD τ).loc main_arg16))
    ∧ AllReal (m ((c.tc : Thread nD τ).loc main_arg17))
    ∧ AllReal (m ((c.tc : Thread nD τ).loc main_arg18)) :=
  fn_decode _ _ _ _ _ _ _ _ _ _ _ _ _ _ _ _ _ _ _ _ _ _ _ (h c)

end Cert.PreReal

end
-- ==== Proof.RefOps.lean ====
import proofs.«418940_j1529008358070_1_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

abbrev opsGraph : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    unary main_cst_3 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v12 main_v14 main_call0_v1 main_v15 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

abbrev opsL1 : List (HloOp τ sig (Elt F)) :=
  [ binary main_arg0 main_arg3 main_v31 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    nullary main_c_7 (constantI S_ 32 0#32),
    unary main_c_7 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x64 ![0, 1] bcast_S850000x1_S850000x64_0_1 : (⟨S850000x1, .f32⟩ : BufTy).Contents (Elt F) → (⟨S850000x64, .f32⟩ : BufTy).Contents (Elt F)),
    binary main_v38 main_v40 main_v41 (mulf : (⟨S850000x64, .f32⟩ : BufTy).Contents (Elt F) → (⟨S850000x64, .f32⟩ : BufTy).Contents (Elt F) → (⟨S850000x64, .f32⟩ : BufTy).Contents (Elt F)),
    nullary main_cst_9 (constant S_ .f32 0x00000000#32),
    unary main_cst_9 main_v42 (broadcastInDim S50000x64 ![] bcast_S_S50000x64 : (⟨S_, .f32⟩ : BufTy).Contents (Elt F) → (⟨S50000x64, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v47 main_cst_10 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_11 (constant S_ .f32 0x47435000#32),
    unary main_cst_11 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    nullary main_call1_cst (constant S_ .f32 0x00000000#32),
    binary main_v47 main_call1_cst main_call1_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call1_v0 main_call1_v1 (broadcastInDim S1x64 ![1] bcast_S64_S1x64_1 : (⟨S64, .f32⟩ : BufTy).Contents (Elt F) → (⟨S1x64, .f32⟩ : BufTy).Contents (Elt F)),
    nullary main_call1_cst_0 (constant S_ .f32 0x47435000#32),
    unary main_call1_cst_0 main_call1_v2 (broadcastInDim S1x64 ![] bcast_S_S1x64 : (⟨S_, .f32⟩ : BufTy).Contents (Elt F) → (⟨S1x64, .f32⟩ : BufTy).Contents (Elt F)),
    binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    unary main_call1_v3 main_call1_v4 (broadcastInDim S50000x64 ![0, 1] bcast_S1x64_S50000x64_0_1 : (⟨S1x64, .f32⟩ : BufTy).Contents (Elt F) → (⟨S50000x64, .f32⟩ : BufTy).Contents (Elt F)),
    binary main_v47 main_call1_v4 main_call1_v5 (subf : (⟨S50000x64, .f32⟩ : BufTy).Contents (Elt F) → (⟨S50000x64, .f32⟩ : BufTy).Contents (Elt F) → (⟨S50000x64, .f32⟩ : BufTy).Contents (Elt F)),
    binary main_call1_v5 main_call1_v5 main_call1_v6 (mulf : (⟨S50000x64, .f32⟩ : BufTy).Contents (Elt F) → (⟨S50000x64, .f32⟩ : BufTy).Contents (Elt F) → (⟨S50000x64, .f32⟩ : BufTy).Contents (Elt F)),
    unary main_c_12 main_call1_v7 (sitofp .f32 : (⟨S_, .i32⟩ : BufTy).Contents (Elt F) → (⟨S_, .f32⟩ : BufTy).Contents (Elt F)),
    nullary main_call1_cst_1 (constant S_ .f32 0x47435000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call1_v8 main_call1_v10 (broadcastInDim S64 ![] bcast_S_S64 : (⟨S_, .f32⟩ : BufTy).Contents (Elt F) → (⟨S64, .f32⟩ : BufTy).Contents (Elt F)),
    binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S64 ![] bcast_S_S64 : (⟨S_, .f32⟩ : BufTy).Contents (Elt F) → (⟨S64, .f32⟩ : BufTy).Contents (Elt F)),
    ternary main_call1_v12 main_call1_v11 main_call1_call0_v1 main_v51 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v50 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v47 main_v53 main_v54 (subf : (⟨S50000x64, .f32⟩ : BufTy).Contents (Elt F) → (⟨S50000x64, .f32⟩ : BufTy).Contents (Elt F) → (⟨S50000x64, .f32⟩ : BufTy).Contents (Elt F)),
    unary main_arg5 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v56 main_v54 main_v57 (mulf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v58 (broadcastInDim S64 ![] bcast_S_S64 : (⟨S_, .f32⟩ : BufTy).Contents (Elt F) → (⟨S64, .f32⟩ : BufTy).Contents (Elt F)),
    binary main_v51 main_v58 main_v59 (addf : (⟨S64, .f32⟩ : BufTy).Contents (Elt F) → (⟨S64, .f32⟩ : BufTy).Contents (Elt F) → (⟨S64, .f32⟩ : BufTy).Contents (Elt F)),
    unary main_v59 main_v60 (Host.rsqrt : (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v57 main_v62 main_v63 (mulf : (⟨S50000x64, .f32⟩ : BufTy).Contents (Elt F) → (⟨S50000x64, .f32⟩ : BufTy).Contents (Elt F) → (⟨S50000x64, .f32⟩ : BufTy).Contents (Elt F)),
    unary main_arg6 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    nullary main_call2_cst (constant S_ .f32 0x00000000#32),
    unary main_call2_cst main_call2_v0 (broadcastInDim S50000x64 ![] bcast_S_S50000x64 : (⟨S_, .f32⟩ : BufTy).Contents (Elt F) → (⟨S50000x64, .f32⟩ : BufTy).Contents (Elt F)),
    binary main_v66 main_call2_v0 main_v67 (maximumf : (⟨S50000x64, .f32⟩ : BufTy).Contents (Elt F) → (⟨S50000x64, .f32⟩ : BufTy).Contents (Elt F) → (⟨S50000x64, .f32⟩ : BufTy).Contents (Elt F)) ]

abbrev opsL2 : List (HloOp τ sig (Elt F)) :=
  [ binary main_v67 main_arg7 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_14 (constantI S_ 32 0#32),
    unary main_c_14 main_v69 (broadcastInDim S850000 ![] bcast_S_S850000 : (⟨S_, .i32⟩ : BufTy).Contents (Elt F) → (⟨S850000, .i32⟩ : BufTy).Contents (Elt F)),
    binary main_v3 main_v69 main_v70 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v71 (broadcastInDim S850000 ![] bcast_S_S850000 : (⟨S_, .i32⟩ : BufTy).Contents (Elt F) → (⟨S850000, .i32⟩ : BufTy).Contents (Elt F)),
    binary main_v3 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x64 ![0, 1] bcast_S850000x1_S850000x64_0_1 : (⟨S850000x1, .f32⟩ : BufTy).Contents (Elt F) → (⟨S850000x64, .f32⟩ : BufTy).Contents (Elt F)),
    binary main_v75 main_v77 main_v78 (mulf : (⟨S850000x64, .f32⟩ : BufTy).Contents (Elt F) → (⟨S850000x64, .f32⟩ : BufTy).Contents (Elt F) → (⟨S850000x64, .f32⟩ : BufTy).Contents (Elt F)),
    nullary main_cst_16 (constant S_ .f32 0x00000000#32),
    unary main_cst_16 main_v79 (broadcastInDim S50000x64 ![] bcast_S_S50000x64 : (⟨S_, .f32⟩ : BufTy).Contents (Elt F) → (⟨S50000x64, .f32⟩ : BufTy).Contents (Elt F)),
    unary main_v6 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg8 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v81 main_v83 main_v84 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v84 main_cst_17 main_v85 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v86 (broadcastInDim S64 ![] bcast_S_S64 : (⟨S_, .f32⟩ : BufTy).Contents (Elt F) → (⟨S64, .f32⟩ : BufTy).Contents (Elt F)),
    binary main_v85 main_v86 main_v87 (Host.divf : (⟨S64, .f32⟩ : BufTy).Contents (Elt F) → (⟨S64, .f32⟩ : BufTy).Contents (Elt F) → (⟨S64, .f32⟩ : BufTy).Contents (Elt F)),
    nullary main_c_19 (constantI S_ 32 0#32),
    nullary main_call3_cst (constant S_ .f32 0x00000000#32),
    binary main_v84 main_call3_cst main_call3_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call3_v0 main_call3_v1 (broadcastInDim S1x64 ![1] bcast_S64_S1x64_1 : (⟨S64, .f32⟩ : BufTy).Contents (Elt F) → (⟨S1x64, .f32⟩ : BufTy).Contents (Elt F)),
    nullary main_call3_cst_0 (constant S_ .f32 0x47435000#32),
    unary main_call3_cst_0 main_call3_v2 (broadcastInDim S1x64 ![] bcast_S_S1x64 : (⟨S_, .f32⟩ : BufTy).Contents (Elt F) → (⟨S1x64, .f32⟩ : BufTy).Contents (Elt F)),
    binary main_call3_v1 main_call3_v2 main_call3_v3 (Host.divf : (⟨S1x64, .f32⟩ : BufTy).Contents (Elt F) → (⟨S1x64, .f32⟩ : BufTy).Contents (Elt F) → (⟨S1x64, .f32⟩ : BufTy).Contents (Elt F)),
    unary main_call3_v3 main_call3_v4 (broadcastInDim S50000x64 ![0, 1] bcast_S1x64_S50000x64_0_1 : (⟨S1x64, .f32⟩ : BufTy).Contents (Elt F) → (⟨S50000x64, .f32⟩ : BufTy).Contents (Elt F)),
    binary main_v84 main_call3_v4 main_call3_v5 (subf : (⟨S50000x64, .f32⟩ : BufTy).Contents (Elt F) → (⟨S50000x64, .f32⟩ : BufTy).Contents (Elt F) → (⟨S50000x64, .f32⟩ : BufTy).Contents (Elt F)),
    binary main_call3_v5 main_call3_v5 main_call3_v6 (mulf : (⟨S50000x64, .f32⟩ : BufTy).Contents (Elt F) → (⟨S50000x64, .f32⟩ : BufTy).Contents (Elt F) → (⟨S50000x64, .f32⟩ : BufTy).Contents (Elt F)),
    unary main_c_19 main_call3_v7 (sitofp .f32 : (⟨S_, .i32⟩ : BufTy).Contents (Elt F) → (⟨S_, .f32⟩ : BufTy).Contents (Elt F)),
    nullary main_call3_cst_1 (constant S_ .f32 0x47435000#32),
    binary main_call3_cst_1 main_call3_v7 main_call3_v8 (subf : (⟨S_, .f32⟩ : BufTy).Contents (Elt F) → (⟨S_, .f32⟩ : BufTy).Contents (Elt F) → (⟨S_, .f32⟩ : BufTy).Contents (Elt F)),
    nullary main_call3_cst_2 (constant S_ .f32 0x00000000#32),
    binary main_call3_v6 main_call3_cst_2 main_call3_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call3_v8 main_call3_v10 (broadcastInDim S64 ![] bcast_S_S64 : (⟨S_, .f32⟩ : BufTy).Contents (Elt F) → (⟨S64, .f32⟩ : BufTy).Contents (Elt F)),
    binary main_call3_v9 main_call3_v10 main_call3_v11 (Host.divf : (⟨S64, .f32⟩ : BufTy).Contents (Elt F) → (⟨S64, .f32⟩ : BufTy).Contents (Elt F) → (⟨S64, .f32⟩ : BufTy).Contents (Elt F)),
    nullary main_call3_cst_3 (constant S_ .f32 0x00000000#32),
    binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32),
    unary main_call3_cst_4 main_call3_call0_v0 (id : (⟨S_, .f32⟩ : BufTy).Contents (Elt F) → (⟨S_, .f32⟩ : BufTy).Contents (Elt F)),
    unary main_call3_call0_v0 main_call3_call0_v1 (broadcastInDim S64 ![] bcast_S_S64 : (⟨S_, .f32⟩ : BufTy).Contents (Elt F) → (⟨S64, .f32⟩ : BufTy).Contents (Elt F)),
    ternary main_call3_v12 main_call3_v11 main_call3_call0_v1 main_v88 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v87 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v84 main_v90 main_v91 (subf : (⟨S50000x64, .f32⟩ : BufTy).Contents (Elt F) → (⟨S50000x64, .f32⟩ : BufTy).Contents (Elt F) → (⟨S50000x64, .f32⟩ : BufTy).Contents (Elt F)),
    unary main_arg9 main_v92 (broadcastInDim S1x64 ![1] bcast_S64_S1x64_1 : (⟨S64, .f32⟩ : BufTy).Contents (Elt F) → (⟨S1x64, .f32⟩ : BufTy).Contents (Elt F)),
    unary main_v92 main_v93 (broadcastInDim S50000x64 ![0, 1] bcast_S1x64_S50000x64_0_1 : (⟨S1x64, .f32⟩ : BufTy).Contents (Elt F) → (⟨S50000x64, .f32⟩ : BufTy).Contents (Elt F)),
    binary main_v93 main_v91 main_v94 (mulf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3727C5AC#32),
    unary main_cst_20 main_v95 (broadcastInDim S64 ![] bcast_S_S64 : (⟨S_, .f32⟩ : BufTy).Contents (Elt F) → (⟨S64, .f32⟩ : BufTy).Contents (Elt F)),
    binary main_v88 main_v95 main_v96 (addf : (⟨S64, .f32⟩ : BufTy).Contents (Elt F) → (⟨S64, .f32⟩ : BufTy).Contents (Elt F) → (⟨S64, .f32⟩ : BufTy).Contents (Elt F)),
    unary main_v96 main_v97 (Host.rsqrt : (⟨S64, .f32⟩ : BufTy).Contents (Elt F) → (⟨S64, .f32⟩ : BufTy).Contents (Elt F)),
    unary main_v97 main_v98 (broadcastInDim S1x64 ![1] bcast_S64_S1x64_1 : (⟨S64, .f32⟩ : BufTy).Contents (Elt F) → (⟨S1x64, .f32⟩ : BufTy).Contents (Elt F)),
    unary main_v98 main_v99 (broadcastInDim S50000x64 ![0, 1] bcast_S1x64_S50000x64_0_1 : (⟨S1x64, .f32⟩ : BufTy).Contents (Elt F) → (⟨S50000x64, .f32⟩ : BufTy).Contents (Elt F)),
    binary main_v94 main_v99 main_v100 (mulf : (⟨S50000x64, .f32⟩ : BufTy).Contents (Elt F) → (⟨S50000x64, .f32⟩ : BufTy).Contents (Elt F) → (⟨S50000x64, .f32⟩ : BufTy).Contents (Elt F)),
    unary main_arg10 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (addf : (⟨S50000x64, .f32⟩ : BufTy).Contents (Elt F) → (⟨S50000x64, .f32⟩ : BufTy).Contents (Elt F) → (⟨S50000x64, .f32⟩ : BufTy).Contents (Elt F)),
    nullary main_call4_cst (constant S_ .f32 0x00000000#32),
    unary main_call4_cst main_call4_v0 (broadcastInDim S50000x64 ![] bcast_S_S50000x64 : (⟨S_, .f32⟩ : BufTy).Contents (Elt F) → (⟨S50000x64, .f32⟩ : BufTy).Contents (Elt F)),
    binary main_v103 main_call4_v0 main_v104 (maximumf : (⟨S50000x64, .f32⟩ : BufTy).Contents (Elt F) → (⟨S50000x64, .f32⟩ : BufTy).Contents (Elt F) → (⟨S50000x64, .f32⟩ : BufTy).Contents (Elt F)) ]

abbrev opsL3 : List (HloOp τ sig (Elt F)) :=
  [ binary main_v104 main_arg11 main_v105 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_21 (constantI S_ 32 0#32),
    unary main_c_21 main_v106 (broadcastInDim S850000 ![] bcast_S_S850000 : (⟨S_, .i32⟩ : BufTy).Contents (Elt F) → (⟨S850000, .i32⟩ : BufTy).Contents (Elt F)),
    binary main_v3 main_v106 main_v107 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v108 (broadcastInDim S850000 ![] bcast_S_S850000 : (⟨S_, .i32⟩ : BufTy).Contents (Elt F) → (⟨S850000, .i32⟩ : BufTy).Contents (Elt F)),
    binary main_v3 main_v108 main_v109 (addi : (⟨S850000, .i32⟩ : BufTy).Contents (Elt F) → (⟨S850000, .i32⟩ : BufTy).Contents (Elt F) → (⟨S850000, .i32⟩ : BufTy).Contents (Elt F)),
    ternary main_v107 main_v109 main_v3 main_v110 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v110 main_v111 (broadcastInDim S850000x1 ![0] bcast_S850000_S850000x1_0 : (⟨S850000, .i32⟩ : BufTy).Contents (Elt F) → (⟨S850000x1, .i32⟩ : BufTy).Contents (Elt F)),
    binary main_v105 main_v111 main_v112 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v113 (broadcastInDim S850000x1 ![0] bcast_S850000_S850000x1_0 : (⟨S850000, .f32⟩ : BufTy).Contents (Elt F) → (⟨S850000x1, .f32⟩ : BufTy).Contents (Elt F)),
    unary main_v113 main_v114 (broadcastInDim S850000x64 ![0, 1] bcast_S850000x1_S850000x64_0_1 : (⟨S850000x1, .f32⟩ : BufTy).Contents (Elt F) → (⟨S850000x64, .f32⟩ : BufTy).Contents (Elt F)),
    binary main_v112 main_v114 main_v115 (mulf : (⟨S850000x64, .f32⟩ : BufTy).Contents (Elt F) → (⟨S850000x64, .f32⟩ : BufTy).Contents (Elt F) → (⟨S850000x64, .f32⟩ : BufTy).Contents (Elt F)),
    nullary main_cst_23 (constant S_ .f32 0x00000000#32),
    unary main_cst_23 main_v116 (broadcastInDim S50000x64 ![] bcast_S_S50000x64 : (⟨S_, .f32⟩ : BufTy).Contents (Elt F) → (⟨S50000x64, .f32⟩ : BufTy).Contents (Elt F)),
    unary main_v6 main_v117 (broadcastInDim S850000x1 ![0] bcast_S850000_S850000x1_0 : (⟨S850000, .i32⟩ : BufTy).Contents (Elt F) → (⟨S850000x1, .i32⟩ : BufTy).Contents (Elt F)),
    ternary main_v116 main_v117 main_v115 main_v118 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg12 main_v119 (broadcastInDim S1x64 ![1] bcast_S64_S1x64_1 : (⟨S64, .f32⟩ : BufTy).Contents (Elt F) → (⟨S1x64, .f32⟩ : BufTy).Contents (Elt F)),
    unary main_v119 main_v120 (broadcastInDim S50000x64 ![0, 1] bcast_S1x64_S50000x64_0_1 : (⟨S1x64, .f32⟩ : BufTy).Contents (Elt F) → (⟨S50000x64, .f32⟩ : BufTy).Contents (Elt F)),
    binary main_v118 main_v120 main_v121 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x00000000#32),
    binary main_v121 main_cst_24 main_v122 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_25 (constant S_ .f32 0x47435000#32),
    unary main_cst_25 main_v123 (broadcastInDim S64 ![] bcast_S_S64 : (⟨S_, .f32⟩ : BufTy).Contents (Elt F) → (⟨S64, .f32⟩ : BufTy).Contents (Elt F)),
    binary main_v122 main_v123 main_v124 (Host.divf : (⟨S64, .f32⟩ : BufTy).Contents (Elt F) → (⟨S64, .f32⟩ : BufTy).Contents (Elt F) → (⟨S64, .f32⟩ : BufTy).Contents (Elt F)),
    nullary main_c_26 (constantI S_ 32 0#32),
    nullary main_call5_cst (constant S_ .f32 0x00000000#32),
    binary main_v121 main_call5_cst main_call5_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call5_v0 main_call5_v1 (broadcastInDim S1x64 ![1] bcast_S64_S1x64_1 : (⟨S64, .f32⟩ : BufTy).Contents (Elt F) → (⟨S1x64, .f32⟩ : BufTy).Contents (Elt F)),
    nullary main_call5_cst_0 (constant S_ .f32 0x47435000#32),
    unary main_call5_cst_0 main_call5_v2 (broadcastInDim S1x64 ![] bcast_S_S1x64 : (⟨S_, .f32⟩ : BufTy).Contents (Elt F) → (⟨S1x64, .f32⟩ : BufTy).Contents (Elt F)),
    binary main_call5_v1 main_call5_v2 main_call5_v3 (Host.divf : (⟨S1x64, .f32⟩ : BufTy).Contents (Elt F) → (⟨S1x64, .f32⟩ : BufTy).Contents (Elt F) → (⟨S1x64, .f32⟩ : BufTy).Contents (Elt F)),
    unary main_call5_v3 main_call5_v4 (broadcastInDim S50000x64 ![0, 1] bcast_S1x64_S50000x64_0_1 : (⟨S1x64, .f32⟩ : BufTy).Contents (Elt F) → (⟨S50000x64, .f32⟩ : BufTy).Contents (Elt F)),
    binary main_v121 main_call5_v4 main_call5_v5 (subf : (⟨S50000x64, .f32⟩ : BufTy).Contents (Elt F) → (⟨S50000x64, .f32⟩ : BufTy).Contents (Elt F) → (⟨S50000x64, .f32⟩ : BufTy).Contents (Elt F)),
    binary main_call5_v5 main_call5_v5 main_call5_v6 (mulf : (⟨S50000x64, .f32⟩ : BufTy).Contents (Elt F) → (⟨S50000x64, .f32⟩ : BufTy).Contents (Elt F) → (⟨S50000x64, .f32⟩ : BufTy).Contents (Elt F)),
    unary main_c_26 main_call5_v7 (sitofp .f32 : (⟨S_, .i32⟩ : BufTy).Contents (Elt F) → (⟨S_, .f32⟩ : BufTy).Contents (Elt F)),
    nullary main_call5_cst_1 (constant S_ .f32 0x47435000#32),
    binary main_call5_cst_1 main_call5_v7 main_call5_v8 (subf : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call5_v8 main_call5_v10 (broadcastInDim S64 ![] bcast_S_S64 : (⟨S_, .f32⟩ : BufTy).Contents (Elt F) → (⟨S64, .f32⟩ : BufTy).Contents (Elt F)),
    binary main_call5_v9 main_call5_v10 main_call5_v11 (Host.divf : (⟨S64, .f32⟩ : BufTy).Contents (Elt F) → (⟨S64, .f32⟩ : BufTy).Contents (Elt F) → (⟨S64, .f32⟩ : BufTy).Contents (Elt F)),
    nullary main_call5_cst_3 (constant S_ .f32 0x00000000#32),
    binary main_call5_v8 main_call5_cst_3 main_call5_v12 (cmpf .ogt : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 (id : (⟨S_, .f32⟩ : BufTy).Contents (Elt F) → (⟨S_, .f32⟩ : BufTy).Contents (Elt F)),
    unary main_call5_call0_v0 main_call5_call0_v1 (broadcastInDim S64 ![] bcast_S_S64 : (⟨S_, .f32⟩ : BufTy).Contents (Elt F) → (⟨S64, .f32⟩ : BufTy).Contents (Elt F)),
    ternary main_call5_v12 main_call5_v11 main_call5_call0_v1 main_v125 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v124 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v121 main_v127 main_v128 (subf : (⟨S50000x64, .f32⟩ : BufTy).Contents (Elt F) → (⟨S50000x64, .f32⟩ : BufTy).Contents (Elt F) → (⟨S50000x64, .f32⟩ : BufTy).Contents (Elt F)),
    unary main_arg13 main_v129 (broadcastInDim S1x64 ![1] bcast_S64_S1x64_1 : (⟨S64, .f32⟩ : BufTy).Contents (Elt F) → (⟨S1x64, .f32⟩ : BufTy).Contents (Elt F)),
    unary main_v129 main_v130 (broadcastInDim S50000x64 ![0, 1] bcast_S1x64_S50000x64_0_1 : (⟨S1x64, .f32⟩ : BufTy).Contents (Elt F) → (⟨S50000x64, .f32⟩ : BufTy).Contents (Elt F)),
    binary main_v130 main_v128 main_v131 (mulf : (⟨S50000x64, .f32⟩ : BufTy).Contents (Elt F) → (⟨S50000x64, .f32⟩ : BufTy).Contents (Elt F) → (⟨S50000x64, .f32⟩ : BufTy).Contents (Elt F)),
    nullary main_cst_27 (constant S_ .f32 0x3727C5AC#32),
    unary main_cst_27 main_v132 (broadcastInDim S64 ![] bcast_S_S64 : (⟨S_, .f32⟩ : BufTy).Contents (Elt F) → (⟨S64, .f32⟩ : BufTy).Contents (Elt F)),
    binary main_v125 main_v132 main_v133 (addf : (⟨S64, .f32⟩ : BufTy).Contents (Elt F) → (⟨S64, .f32⟩ : BufTy).Contents (Elt F) → (⟨S64, .f32⟩ : BufTy).Contents (Elt F)),
    unary main_v133 main_v134 (Host.rsqrt : (⟨S64, .f32⟩ : BufTy).Contents (Elt F) → (⟨S64, .f32⟩ : BufTy).Contents (Elt F)),
    unary main_v134 main_v135 (broadcastInDim S1x64 ![1] bcast_S64_S1x64_1 : (⟨S64, .f32⟩ : BufTy).Contents (Elt F) → (⟨S1x64, .f32⟩ : BufTy).Contents (Elt F)),
    unary main_v135 main_v136 (broadcastInDim S50000x64 ![0, 1] bcast_S1x64_S50000x64_0_1 : (⟨S1x64, .f32⟩ : BufTy).Contents (Elt F) → (⟨S50000x64, .f32⟩ : BufTy).Contents (Elt F)),
    binary main_v131 main_v136 main_v137 (mulf : (⟨S50000x64, .f32⟩ : BufTy).Contents (Elt F) → (⟨S50000x64, .f32⟩ : BufTy).Contents (Elt F) → (⟨S50000x64, .f32⟩ : BufTy).Contents (Elt F)),
    unary main_arg14 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v137 main_v139 main_v140 (addf : (⟨S50000x64, .f32⟩ : BufTy).Contents (Elt F) → (⟨S50000x64, .f32⟩ : BufTy).Contents (Elt F) → (⟨S50000x64, .f32⟩ : BufTy).Contents (Elt F)),
    nullary main_call6_cst (constant S_ .f32 0x00000000#32),
    unary main_call6_cst main_call6_v0 (broadcastInDim S50000x64 ![] bcast_S_S50000x64 : (⟨S_, .f32⟩ : BufTy).Contents (Elt F) → (⟨S50000x64, .f32⟩ : BufTy).Contents (Elt F)),
    binary main_v140 main_call6_v0 main_v141 (maximumf : (⟨S50000x64, .f32⟩ : BufTy).Contents (Elt F) → (⟨S50000x64, .f32⟩ : BufTy).Contents (Elt F) → (⟨S50000x64, .f32⟩ : BufTy).Contents (Elt F)) ]

abbrev opsL4 : List (HloOp τ sig (Elt F)) :=
  [ binary main_v141 main_arg15 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_28 (constantI S_ 32 0#32),
    unary main_c_28 main_v143 (broadcastInDim S850000 ![] bcast_S_S850000 : (⟨S_, .i32⟩ : BufTy).Contents (Elt F) → (⟨S850000, .i32⟩ : BufTy).Contents (Elt F)),
    binary main_v3 main_v143 main_v144 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v145 (broadcastInDim S850000 ![] bcast_S_S850000 : (⟨S_, .i32⟩ : BufTy).Contents (Elt F) → (⟨S850000, .i32⟩ : BufTy).Contents (Elt F)),
    binary main_v3 main_v145 main_v146 (addi : (⟨S850000, .i32⟩ : BufTy).Contents (Elt F) → (⟨S850000, .i32⟩ : BufTy).Contents (Elt F) → (⟨S850000, .i32⟩ : BufTy).Contents (Elt F)),
    ternary main_v144 main_v146 main_v3 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v147 main_v148 (broadcastInDim S850000x1 ![0] bcast_S850000_S850000x1_0 : (⟨S850000, .i32⟩ : BufTy).Contents (Elt F) → (⟨S850000x1, .i32⟩ : BufTy).Contents (Elt F)),
    binary main_v142 main_v148 main_v149 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v150 (broadcastInDim S850000x1 ![0] bcast_S850000_S850000x1_0 : (⟨S850000, .f32⟩ : BufTy).Contents (Elt F) → (⟨S850000x1, .f32⟩ : BufTy).Contents (Elt F)),
    unary main_v150 main_v151 (broadcastInDim S850000x64 ![0, 1] bcast_S850000x1_S850000x64_0_1 : (⟨S850000x1, .f32⟩ : BufTy).Contents (Elt F) → (⟨S850000x64, .f32⟩ : BufTy).Contents (Elt F)),
    binary main_v149 main_v151 main_v152 (mulf : (⟨S850000x64, .f32⟩ : BufTy).Contents (Elt F) → (⟨S850000x64, .f32⟩ : BufTy).Contents (Elt F) → (⟨S850000x64, .f32⟩ : BufTy).Contents (Elt F)),
    nullary main_cst_30 (constant S_ .f32 0x00000000#32),
    unary main_cst_30 main_v153 (broadcastInDim S50000x64 ![] bcast_S_S50000x64 : (⟨S_, .f32⟩ : BufTy).Contents (Elt F) → (⟨S50000x64, .f32⟩ : BufTy).Contents (Elt F)),
    unary main_v6 main_v154 (broadcastInDim S850000x1 ![0] bcast_S850000_S850000x1_0 : (⟨S850000, .i32⟩ : BufTy).Contents (Elt F) → (⟨S850000x1, .i32⟩ : BufTy).Contents (Elt F)),
    ternary main_v153 main_v154 main_v152 main_v155 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg16 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v155 main_v157 main_v158 (addf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x00000000#32),
    binary main_v158 main_cst_31 main_v159 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_32 (constant S_ .f32 0x47435000#32),
    unary main_cst_32 main_v160 (broadcastInDim S64 ![] bcast_S_S64 : (⟨S_, .f32⟩ : BufTy).Contents (Elt F) → (⟨S64, .f32⟩ : BufTy).Contents (Elt F)),
    binary main_v159 main_v160 main_v161 (Host.divf : (⟨S64, .f32⟩ : BufTy).Contents (Elt F) → (⟨S64, .f32⟩ : BufTy).Contents (Elt F) → (⟨S64, .f32⟩ : BufTy).Contents (Elt F)),
    nullary main_c_33 (constantI S_ 32 0#32),
    nullary main_call7_cst (constant S_ .f32 0x00000000#32),
    binary main_v158 main_call7_cst main_call7_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v0 main_call7_v1 (broadcastInDim S1x64 ![1] bcast_S64_S1x64_1 : (⟨S64, .f32⟩ : BufTy).Contents (Elt F) → (⟨S1x64, .f32⟩ : BufTy).Contents (Elt F)),
    nullary main_call7_cst_0 (constant S_ .f32 0x47435000#32),
    unary main_call7_cst_0 main_call7_v2 (broadcastInDim S1x64 ![] bcast_S_S1x64 : (⟨S_, .f32⟩ : BufTy).Contents (Elt F) → (⟨S1x64, .f32⟩ : BufTy).Contents (Elt F)),
    binary main_call7_v1 main_call7_v2 main_call7_v3 (Host.divf : (⟨S1x64, .f32⟩ : BufTy).Contents (Elt F) → (⟨S1x64, .f32⟩ : BufTy).Contents (Elt F) → (⟨S1x64, .f32⟩ : BufTy).Contents (Elt F)),
    unary main_call7_v3 main_call7_v4 (broadcastInDim S50000x64 ![0, 1] bcast_S1x64_S50000x64_0_1 : (⟨S1x64, .f32⟩ : BufTy).Contents (Elt F) → (⟨S50000x64, .f32⟩ : BufTy).Contents (Elt F)),
    binary main_v158 main_call7_v4 main_call7_v5 (subf : (⟨S50000x64, .f32⟩ : BufTy).Contents (Elt F) → (⟨S50000x64, .f32⟩ : BufTy).Contents (Elt F) → (⟨S50000x64, .f32⟩ : BufTy).Contents (Elt F)),
    binary main_call7_v5 main_call7_v5 main_call7_v6 (mulf : (⟨S50000x64, .f32⟩ : BufTy).Contents (Elt F) → (⟨S50000x64, .f32⟩ : BufTy).Contents (Elt F) → (⟨S50000x64, .f32⟩ : BufTy).Contents (Elt F)),
    unary main_c_33 main_call7_v7 (sitofp .f32 : (⟨S_, .i32⟩ : BufTy).Contents (Elt F) → (⟨S_, .f32⟩ : BufTy).Contents (Elt F)),
    nullary main_call7_cst_1 (constant S_ .f32 0x47435000#32),
    binary main_call7_cst_1 main_call7_v7 main_call7_v8 (subf : (⟨S_, .f32⟩ : BufTy).Contents (Elt F) → (⟨S_, .f32⟩ : BufTy).Contents (Elt F) → (⟨S_, .f32⟩ : BufTy).Contents (Elt F)),
    nullary main_call7_cst_2 (constant S_ .f32 0x00000000#32),
    binary main_call7_v6 main_call7_cst_2 main_call7_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v8 main_call7_v10 (broadcastInDim S64 ![] bcast_S_S64 : (⟨S_, .f32⟩ : BufTy).Contents (Elt F) → (⟨S64, .f32⟩ : BufTy).Contents (Elt F)),
    binary main_call7_v9 main_call7_v10 main_call7_v11 (Host.divf : (⟨S64, .f32⟩ : BufTy).Contents (Elt F) → (⟨S64, .f32⟩ : BufTy).Contents (Elt F) → (⟨S64, .f32⟩ : BufTy).Contents (Elt F)),
    nullary main_call7_cst_3 (constant S_ .f32 0x00000000#32),
    binary main_call7_v8 main_call7_cst_3 main_call7_v12 (cmpf .ogt : (⟨S_, .f32⟩ : BufTy).Contents (Elt F) → (⟨S_, .f32⟩ : BufTy).Contents (Elt F) → (⟨S_, .i1⟩ : BufTy).Contents (Elt F)),
    nullary main_call7_cst_4 (constant S_ .f32 0x7FC00000#32),
    unary main_call7_cst_4 main_call7_call0_v0 (id : (⟨S_, .f32⟩ : BufTy).Contents (Elt F) → (⟨S_, .f32⟩ : BufTy).Contents (Elt F)),
    unary main_call7_call0_v0 main_call7_call0_v1 (broadcastInDim S64 ![] bcast_S_S64 : (⟨S_, .f32⟩ : BufTy).Contents (Elt F) → (⟨S64, .f32⟩ : BufTy).Contents (Elt F)),
    ternary main_call7_v12 main_call7_v11 main_call7_call0_v1 main_v162 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v161 main_v163 (broadcastInDim S1x64 ![1] bcast_S64_S1x64_1 : (⟨S64, .f32⟩ : BufTy).Contents (Elt F) → (⟨S1x64, .f32⟩ : BufTy).Contents (Elt F)),
    unary main_v163 main_v164 (broadcastInDim S50000x64 ![0, 1] bcast_S1x64_S50000x64_0_1 : (⟨S1x64, .f32⟩ : BufTy).Contents (Elt F) → (⟨S50000x64, .f32⟩ : BufTy).Contents (Elt F)),
    binary main_v158 main_v164 main_v165 (subf : (⟨S50000x64, .f32⟩ : BufTy).Contents (Elt F) → (⟨S50000x64, .f32⟩ : BufTy).Contents (Elt F) → (⟨S50000x64, .f32⟩ : BufTy).Contents (Elt F)),
    unary main_arg17 main_v166 (broadcastInDim S1x64 ![1] bcast_S64_S1x64_1 : (⟨S64, .f32⟩ : BufTy).Contents (Elt F) → (⟨S1x64, .f32⟩ : BufTy).Contents (Elt F)),
    unary main_v166 main_v167 (broadcastInDim S50000x64 ![0, 1] bcast_S1x64_S50000x64_0_1 : (⟨S1x64, .f32⟩ : BufTy).Contents (Elt F) → (⟨S50000x64, .f32⟩ : BufTy).Contents (Elt F)),
    binary main_v167 main_v165 main_v168 (mulf : (⟨S50000x64, .f32⟩ : BufTy).Contents (Elt F) → (⟨S50000x64, .f32⟩ : BufTy).Contents (Elt F) → (⟨S50000x64, .f32⟩ : BufTy).Contents (Elt F)),
    nullary main_cst_34 (constant S_ .f32 0x3727C5AC#32),
    unary main_cst_34 main_v169 (broadcastInDim S64 ![] bcast_S_S64 : (⟨S_, .f32⟩ : BufTy).Contents (Elt F) → (⟨S64, .f32⟩ : BufTy).Contents (Elt F)),
    binary main_v162 main_v169 main_v170 (addf : (⟨S64, .f32⟩ : BufTy).Contents (Elt F) → (⟨S64, .f32⟩ : BufTy).Contents (Elt F) → (⟨S64, .f32⟩ : BufTy).Contents (Elt F)),
    unary main_v170 main_v171 (Host.rsqrt : (⟨S64, .f32⟩ : BufTy).Contents (Elt F) → (⟨S64, .f32⟩ : BufTy).Contents (Elt F)),
    unary main_v171 main_v172 (broadcastInDim S1x64 ![1] bcast_S64_S1x64_1 : (⟨S64, .f32⟩ : BufTy).Contents (Elt F) → (⟨S1x64, .f32⟩ : BufTy).Contents (Elt F)),
    unary main_v172 main_v173 (broadcastInDim S50000x64 ![0, 1] bcast_S1x64_S50000x64_0_1 : (⟨S1x64, .f32⟩ : BufTy).Contents (Elt F) → (⟨S50000x64, .f32⟩ : BufTy).Contents (Elt F)),
    binary main_v168 main_v173 main_v174 (mulf : (⟨S50000x64, .f32⟩ : BufTy).Contents (Elt F) → (⟨S50000x64, .f32⟩ : BufTy).Contents (Elt F) → (⟨S50000x64, .f32⟩ : BufTy).Contents (Elt F)),
    unary main_arg18 main_v175 (broadcastInDim S1x64 ![1] bcast_S64_S1x64_1 : (⟨S64, .f32⟩ : BufTy).Contents (Elt F) → (⟨S1x64, .f32⟩ : BufTy).Contents (Elt F)),
    unary main_v175 main_v176 (broadcastInDim S50000x64 ![0, 1] bcast_S1x64_S50000x64_0_1 : (⟨S1x64, .f32⟩ : BufTy).Contents (Elt F) → (⟨S50000x64, .f32⟩ : BufTy).Contents (Elt F)),
    binary main_v174 main_v176 main_v177 (addf : (⟨S50000x64, .f32⟩ : BufTy).Contents (Elt F) → (⟨S50000x64, .f32⟩ : BufTy).Contents (Elt F) → (⟨S50000x64, .f32⟩ : BufTy).Contents (Elt F)),
    nullary main_call8_cst (constant S_ .f32 0x00000000#32),
    unary main_call8_cst main_call8_v0 (broadcastInDim S50000x64 ![] bcast_S_S50000x64 : (⟨S_, .f32⟩ : BufTy).Contents (Elt F) → (⟨S50000x64, .f32⟩ : BufTy).Contents (Elt F)),
    binary main_v177 main_call8_v0 main_v178 (maximumf : (⟨S50000x64, .f32⟩ : BufTy).Contents (Elt F) → (⟨S50000x64, .f32⟩ : BufTy).Contents (Elt F) → (⟨S50000x64, .f32⟩ : BufTy).Contents (Elt F)) ]

abbrev opsPool : List (HloOp τ sig (Elt F)) :=
  [ nullary main_cst_35 (constant S_ .f32 0x3F800000#32),
    unary main_cst_35 main_v179 (broadcastInDim S50000 ![] bcast_S_S50000 : (⟨S_, .f32⟩ : BufTy).Contents (Elt F) → (⟨S50000, .f32⟩ : BufTy).Contents (Elt F)),
    nullary main_cst_36 (constant S_ .f32 0x00000000#32),
    unary main_cst_36 main_v180 (broadcastInDim S64 ![] bcast_S_S64 : (⟨S_, .f32⟩ : BufTy).Contents (Elt F) → (⟨S64, .f32⟩ : BufTy).Contents (Elt F)),
    unary main_arg2 main_v181 (broadcastInDim S50000x1 ![0] bcast_S50000_S50000x1_0 : (⟨S50000, .i32⟩ : BufTy).Contents (Elt F) → (⟨S50000x1, .i32⟩ : BufTy).Contents (Elt F)),
    ternary main_v180 main_v181 main_v179 main_v182 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_37 (constant S_ .f32 0x00000000#32),
    unary main_cst_37 main_v183 (broadcastInDim S64x64 ![] bcast_S_S64x64 : (⟨S_, .f32⟩ : BufTy).Contents (Elt F) → (⟨S64x64, .f32⟩ : BufTy).Contents (Elt F)),
    unary main_arg2 main_v184 (broadcastInDim S50000x1 ![0] bcast_S50000_S50000x1_0 : (⟨S50000, .i32⟩ : BufTy).Contents (Elt F) → (⟨S50000x1, .i32⟩ : BufTy).Contents (Elt F)),
    ternary main_v183 main_v184 main_v178 main_v185 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    nullary main_cst_38 (constant S_ .f32 0x3F800000#32),
    unary main_cst_38 main_call9_v0 (id : (⟨S_, .f32⟩ : BufTy).Contents (Elt F) → (⟨S_, .f32⟩ : BufTy).Contents (Elt F)),
    unary main_call9_v0 main_call9_v1 (broadcastInDim S64 ![] bcast_S_S64 : (⟨S_, .f32⟩ : BufTy).Contents (Elt F) → (⟨S64, .f32⟩ : BufTy).Contents (Elt F)),
    binary main_call9_v1 main_v182 main_v186 (maximumf : (⟨S64, .f32⟩ : BufTy).Contents (Elt F) → (⟨S64, .f32⟩ : BufTy).Contents (Elt F) → (⟨S64, .f32⟩ : BufTy).Contents (Elt F)),
    unary main_v186 main_v187 (broadcastInDim S64x1 ![0] bcast_S64_S64x1_0 : (⟨S64, .f32⟩ : BufTy).Contents (Elt F) → (⟨S64x1, .f32⟩ : BufTy).Contents (Elt F)),
    unary main_v187 main_v188 (broadcastInDim S64x64 ![0, 1] bcast_S64x1_S64x64_0_1 : (⟨S64x1, .f32⟩ : BufTy).Contents (Elt F) → (⟨S64x64, .f32⟩ : BufTy).Contents (Elt F)),
    binary main_v185 main_v188 main_v189 (Host.divf : (⟨S64x64, .f32⟩ : BufTy).Contents (Elt F) → (⟨S64x64, .f32⟩ : BufTy).Contents (Elt F) → (⟨S64x64, .f32⟩ : BufTy).Contents (Elt F)) ]

abbrev opsHead : List (HloOp τ sig (Elt F)) :=
  [ unary main_arg19 main_v190 ((transpose S64x128 [1, 0] · transposes_S128x64_S64x128_1_0) : (⟨S128x64, .f32⟩ : BufTy).Contents (Elt F) → (⟨S64x128, .f32⟩ : BufTy).Contents (Elt F)),
    binary main_v189 main_v190 main_v191 ((fun l r => Host.dotGeneral dot_S64x64_S64x128_S64x128_1_0_0_1_n_n none l r) : (⟨S64x64, .f32⟩ : BufTy).Contents (Elt F) → (⟨S64x128, .f32⟩ : BufTy).Contents (Elt F) → (⟨S64x128, .f32⟩ : BufTy).Contents (Elt F)),
    unary main_arg20 main_v192 (broadcastInDim S1x128 ![1] bcast_S128_S1x128_1 : (⟨S128, .f32⟩ : BufTy).Contents (Elt F) → (⟨S1x128, .f32⟩ : BufTy).Contents (Elt F)),
    unary main_v192 main_v193 (broadcastInDim S64x128 ![0, 1] bcast_S1x128_S64x128_0_1 : (⟨S1x128, .f32⟩ : BufTy).Contents (Elt F) → (⟨S64x128, .f32⟩ : BufTy).Contents (Elt F)),
    binary main_v191 main_v193 main_v194 (addf : (⟨S64x128, .f32⟩ : BufTy).Contents (Elt F) → (⟨S64x128, .f32⟩ : BufTy).Contents (Elt F) → (⟨S64x128, .f32⟩ : BufTy).Contents (Elt F)),
    nullary main_call10_cst (constant S_ .f32 0x00000000#32),
    unary main_call10_cst main_call10_v0 (broadcastInDim S64x128 ![] bcast_S_S64x128 : (⟨S_, .f32⟩ : BufTy).Contents (Elt F) → (⟨S64x128, .f32⟩ : BufTy).Contents (Elt F)),
    binary main_v194 main_call10_v0 main_v195 (maximumf : (⟨S64x128, .f32⟩ : BufTy).Contents (Elt F) → (⟨S64x128, .f32⟩ : BufTy).Contents (Elt F) → (⟨S64x128, .f32⟩ : BufTy).Contents (Elt F)),
    unary main_arg21 main_v196 ((transpose S128x10 [1, 0] · transposes_S10x128_S128x10_1_0) : (⟨S10x128, .f32⟩ : BufTy).Contents (Elt F) → (⟨S128x10, .f32⟩ : BufTy).Contents (Elt F)),
    binary main_v195 main_v196 main_v197 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    unary main_arg22 main_v198 (broadcastInDim S1x10 ![1] bcast_S10_S1x10_1 : (⟨S10, .f32⟩ : BufTy).Contents (Elt F) → (⟨S1x10, .f32⟩ : BufTy).Contents (Elt F)),
    unary main_v198 main_v199 (broadcastInDim S64x10 ![0, 1] bcast_S1x10_S64x10_0_1 : (⟨S1x10, .f32⟩ : BufTy).Contents (Elt F) → (⟨S64x10, .f32⟩ : BufTy).Contents (Elt F)),
    binary main_v197 main_v199 main_v200 (addf : (⟨S64x10, .f32⟩ : BufTy).Contents (Elt F) → (⟨S64x10, .f32⟩ : BufTy).Contents (Elt F) → (⟨S64x10, .f32⟩ : BufTy).Contents (Elt F)) ]
abbrev ops : List (HloOp τ sig (Elt F)) := opsGraph ++ opsL1 ++ opsL2 ++ opsL3 ++ opsL4 ++ opsPool ++ opsHead
abbrev win0 : List (HloOp τ sig (Elt F)) := ops.take 62
abbrev win1 : List (HloOp τ sig (Elt F)) := (ops.drop 62).take 104
abbrev win2 : List (HloOp τ sig (Elt F)) := (ops.drop 166).take 85
abbrev win3 : List (HloOp τ sig (Elt F)) := (ops.drop 251).take 87
abbrev win4 : List (HloOp τ sig (Elt F)) := ops.drop 338

theorem ops_eq_windows : (ops : List (HloOp τ sig (Elt F))) = win0 ++ (win1 ++ (win2 ++ (win3 ++ win4))) := rfl

set_option maxRecDepth 8192 in
theorem main_part0_eq (c : Dev nD) : main_part0 (F := F) c = seq win0 := rfl
set_option maxRecDepth 8192 in
theorem main_part1_eq (c : Dev nD) : main_part1 (F := F) c = seq win1 := rfl
set_option maxRecDepth 8192 in
theorem main_part2_eq (c : Dev nD) : main_part2 (F := F) c = seq win2 := rfl
set_option maxRecDepth 8192 in
theorem main_part3_eq (c : Dev nD) : main_part3 (F := F) c = seq win3 := rfl
set_option maxRecDepth 8192 in
theorem main_part4_eq (c : Dev nD) : main_part4 (F := F) c = seq win4 := rfl

theorem main_eq (c : Dev nD) : main (F := F) c = seq ops := by
  rw [ops_eq_windows]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

section Fresh
variable {τ' : Topo} {sig' : RefSig} {Val : EltTy → Type} (x a b c y : Ref sig' .tc)

theorem nullary_fresh (v : y.ty.Contents Val) (hy) : (nullary (τ := τ') y v hy).fresh = ∅ := rfl
theorem unary_fresh (f : x.ty.Contents Val → y.ty.Contents Val) (hx hy) : (unary (τ := τ') x y f hx hy).fresh = ∅ := rfl
theorem binary_fresh (f : a.ty.Contents Val → b.ty.Contents Val → y.ty.Contents Val) (ha hb hy) :
    (binary (τ := τ') a b y f ha hb hy).fresh = ∅ := rfl
theorem ternary_fresh (f : c.ty.Contents Val → a.ty.Contents Val → b.ty.Contents Val → y.ty.Contents Val) (hc ha hb hy) :
    (ternary (τ := τ') c a b y f hc ha hb hy).fresh = ∅ := rfl
theorem reshape_fresh (he hn hx hy) : (reshape (τ := τ') (Val := Val) x y he hn hx hy).fresh = ∅ := rfl
end Fresh

theorem opsGraph_ok : (opsGraph : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsL1_ok : (opsL1 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsL2_ok : (opsL2 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsL3_ok : (opsL3 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsL4_ok : (opsL4 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsPool_ok : (opsPool : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]
theorem opsHead_ok : (opsHead : List (HloOp τ sig (Elt F))).Forall fun op => op.bufs ⊆ tcRefs τ sig ∧ op.fresh = ∅ := by
  simp only [List.Forall, nullary_bufs_sub, unary_bufs_sub, binary_bufs_sub, ternary_bufs_sub, reshape_bufs_sub,
    nullary_fresh, unary_fresh, binary_fresh, ternary_fresh, reshape_fresh, and_self]

theorem ops_ok (op : HloOp τ sig (Elt F)) (h : op ∈ (ops : List (HloOp τ sig (Elt F)))) :
    op.bufs ⊆ tcRefs τ sig ∧ op.fresh = ∅ := by
  simp only [ops, List.mem_append] at h
  rcases h with (((((h | h) | h) | h) | h) | h) | h
  exacts [List.forall_iff_forall_mem.mp opsGraph_ok op h, List.forall_iff_forall_mem.mp opsL1_ok op h,
    List.forall_iff_forall_mem.mp opsL2_ok op h, List.forall_iff_forall_mem.mp opsL3_ok op h,
    List.forall_iff_forall_mem.mp opsL4_ok op h, List.forall_iff_forall_mem.mp opsPool_ok op h,
    List.forall_iff_forall_mem.mp opsHead_ok op h]

theorem ops_sub : (ops : List (HloOp τ sig (Elt F))).Forall fun op => op.bufs ⊆ tcRefs τ sig :=
  List.forall_iff_forall_mem.mpr fun op h => (ops_ok op h).1

theorem ops_fresh : ∀ op ∈ (ops : List (HloOp τ sig (Elt F))), op.fresh = ∅ := fun op h => (ops_ok op h).2

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefOps

end
-- ==== Proof.RefRead.lean ====
import proofs.«418940_j1529008358070_1_alg».proof.Proof.Stages
import proofs.«418940_j1529008358070_1_alg».proof.Proof.RefOps
import Idealize.ShloMosaic.Lib.StableHlo.Run

noncomputable section

namespace Cert.RefRead

open Idealize.ShloMosaic Idealize.ShloMosaic.TcCoe Idealize.SL.Sem Idealize.ShloMosaic.StableHlo Cert.ReferenceIdeal Cert.RefOps

local notation "Vals" => Valuation τ sig (Elt Ideal)
local notation "dr" => Proc.devRef (τ := τ) (sig := sig) Proc.tc

theorem after_app : ∀ (l₁ l₂ : List (HloOp τ sig (Elt Ideal))) (V : Vals), after (l₁ ++ l₂) V = after l₂ (after l₁ V)
  | [], _, _ => rfl
  | op :: l₁, l₂, V => by rw [List.cons_append, after_cons, after_cons, after_app l₁ l₂]

abbrev WGraph : List (Ref sig .tc) :=
  [
    main_v0, main_v1, main_v2, main_v3, main_v4, main_v5, main_v6, main_cst, main_v7, main_cst_0,
    main_v8, main_v9, main_v10, main_cst_1, main_v11, main_v12, main_cst_2, main_v13, main_v14, main_cst_3,
    main_call0_v0, main_call0_v1, main_v15, main_c, main_v16, main_v17, main_c_4, main_v18, main_v19, main_v20,
    main_v21, main_v22, main_c_5, main_v23, main_v24, main_c_6, main_v25, main_v26, main_v27, main_v28,
    main_v29, main_v30 ]

theorem wGraph : (opsGraph (F := Ideal)).Forall fun op => op.writes ⊆ (WGraph.map (Proc.devRef (τ := τ) Proc.tc)).toFinset := by
  simp only [opsGraph, List.Forall, nullary_writes, unary_writes, binary_writes, ternary_writes, reshape_writes, Finset.singleton_subset_iff]
  repeat' apply And.intro
  all_goals exact List.mem_toFinset.mpr (List.mem_map_of_mem (by decide))

theorem keptGraph (V : Vals) (r : Ref sig .tc) (hr : r ∉ WGraph) : after (opsGraph (F := Ideal)) V (dr r) = V (dr r) :=
  after_of_writes_sub _ V wGraph hr

abbrev WL1 : List (Ref sig .tc) :=
  [
    main_v31, main_c_7, main_v32, main_v33, main_c_8, main_v34, main_v35, main_v36, main_v37, main_v38,
    main_v39, main_v40, main_v41, main_cst_9, main_v42, main_v43, main_v44, main_v45, main_v46, main_v47,
    main_cst_10, main_v48, main_cst_11, main_v49, main_v50, main_c_12, main_call1_cst, main_call1_v0, main_call1_v1, main_call1_cst_0,
    main_call1_v2, main_call1_v3, main_call1_v4, main_call1_v5, main_call1_v6, main_call1_v7, main_call1_cst_1, main_call1_v8, main_call1_cst_2, main_call1_v9,
    main_call1_v10, main_call1_v11, main_call1_cst_3, main_call1_v12, main_call1_cst_4, main_call1_call0_v0, main_call1_call0_v1, main_v51, main_v52, main_v53,
    main_v54, main_v55, main_v56, main_v57, main_cst_13, main_v58, main_v59, main_v60, main_v61, main_v62,
    main_v63, main_v64, main_v65, main_v66, main_call2_cst, main_call2_v0, main_v67 ]

theorem wL1 : (opsL1 (F := Ideal)).Forall fun op => op.writes ⊆ (WL1.map (Proc.devRef (τ := τ) Proc.tc)).toFinset := by
  simp only [opsL1, List.Forall, nullary_writes, unary_writes, binary_writes, ternary_writes, reshape_writes, Finset.singleton_subset_iff]
  repeat' apply And.intro
  all_goals exact List.mem_toFinset.mpr (List.mem_map_of_mem (by decide))

theorem keptL1 (V : Vals) (r : Ref sig .tc) (hr : r ∉ WL1) : after (opsL1 (F := Ideal)) V (dr r) = V (dr r) :=
  after_of_writes_sub _ V wL1 hr

abbrev WL2 : List (Ref sig .tc) :=
  [
    main_v68, main_c_14, main_v69, main_v70, main_c_15, main_v71, main_v72, main_v73, main_v74, main_v75,
    main_v76, main_v77, main_v78, main_cst_16, main_v79, main_v80, main_v81, main_v82, main_v83, main_v84,
    main_cst_17, main_v85, main_cst_18, main_v86, main_v87, main_c_19, main_call3_cst, main_call3_v0, main_call3_v1, main_call3_cst_0,
    main_call3_v2, main_call3_v3, main_call3_v4, main_call3_v5, main_call3_v6, main_call3_v7, main_call3_cst_1, main_call3_v8, main_call3_cst_2, main_call3_v9,
    main_call3_v10, main_call3_v11, main_call3_cst_3, main_call3_v12, main_call3_cst_4, main_call3_call0_v0, main_call3_call0_v1, main_v88, main_v89, main_v90,
    main_v91, main_v92, main_v93, main_v94, main_cst_20, main_v95, main_v96, main_v97, main_v98, main_v99,
    main_v100, main_v101, main_v102, main_v103, main_call4_cst, main_call4_v0, main_v104 ]

theorem wL2 : (opsL2 (F := Ideal)).Forall fun op => op.writes ⊆ (WL2.map (Proc.devRef (τ := τ) Proc.tc)).toFinset := by
  simp only [opsL2, List.Forall, nullary_writes, unary_writes, binary_writes, ternary_writes, reshape_writes, Finset.singleton_subset_iff]
  repeat' apply And.intro
  all_goals exact List.mem_toFinset.mpr (List.mem_map_of_mem (by decide))

theorem keptL2 (V : Vals) (r : Ref sig .tc) (hr : r ∉ WL2) : after (opsL2 (F := Ideal)) V (dr r) = V (dr r) :=
  after_of_writes_sub _ V wL2 hr

abbrev WL3 : List (Ref sig .tc) :=
  [
    main_v105, main_c_21, main_v106, main_v107, main_c_22, main_v108, main_v109, main_v110, main_v111, main_v112,
    main_v113, main_v114, main_v115, main_cst_23, main_v116, main_v117, main_v118, main_v119, main_v120, main_v121,
    main_cst_24, main_v122, main_cst_25, main_v123, main_v124, main_c_26, main_call5_cst, main_call5_v0, main_call5_v1, main_call5_cst_0,
    main_call5_v2, main_call5_v3, main_call5_v4, main_call5_v5, main_call5_v6, main_call5_v7, main_call5_cst_1, main_call5_v8, main_call5_cst_2, main_call5_v9,
    main_call5_v10, main_call5_v11, main_call5_cst_3, main_call5_v12, main_call5_cst_4, main_call5_call0_v0, main_call5_call0_v1, main_v125, main_v126, main_v127,
    main_v128, main_v129, main_v130, main_v131, main_cst_27, main_v132, main_v133, main_v134, main_v135, main_v136,
    main_v137, main_v138, main_v139, main_v140, main_call6_cst, main_call6_v0, main_v141 ]

theorem wL3 : (opsL3 (F := Ideal)).Forall fun op => op.writes ⊆ (WL3.map (Proc.devRef (τ := τ) Proc.tc)).toFinset := by
  simp only [opsL3, List.Forall, nullary_writes, unary_writes, binary_writes, ternary_writes, reshape_writes, Finset.singleton_subset_iff]
  repeat' apply And.intro
  all_goals exact List.mem_toFinset.mpr (List.mem_map_of_mem (by decide))

theorem keptL3 (V : Vals) (r : Ref sig .tc) (hr : r ∉ WL3) : after (opsL3 (F := Ideal)) V (dr r) = V (dr r) :=
  after_of_writes_sub _ V wL3 hr

abbrev WL4 : List (Ref sig .tc) :=
  [
    main_v142, main_c_28, main_v143, main_v144, main_c_29, main_v145, main_v146, main_v147, main_v148, main_v149,
    main_v150, main_v151, main_v152, main_cst_30, main_v153, main_v154, main_v155, main_v156, main_v157, main_v158,
    main_cst_31, main_v159, main_cst_32, main_v160, main_v161, main_c_33, main_call7_cst, main_call7_v0, main_call7_v1, main_call7_cst_0,
    main_call7_v2, main_call7_v3, main_call7_v4, main_call7_v5, main_call7_v6, main_call7_v7, main_call7_cst_1, main_call7_v8, main_call7_cst_2, main_call7_v9,
    main_call7_v10, main_call7_v11, main_call7_cst_3, main_call7_v12, main_call7_cst_4, main_call7_call0_v0, main_call7_call0_v1, main_v162, main_v163, main_v164,
    main_v165, main_v166, main_v167, main_v168, main_cst_34, main_v169, main_v170, main_v171, main_v172, main_v173,
    main_v174, main_v175, main_v176, main_v177, main_call8_cst, main_call8_v0, main_v178 ]

theorem wL4 : (opsL4 (F := Ideal)).Forall fun op => op.writes ⊆ (WL4.map (Proc.devRef (τ := τ) Proc.tc)).toFinset := by
  simp only [opsL4, List.Forall, nullary_writes, unary_writes, binary_writes, ternary_writes, reshape_writes, Finset.singleton_subset_iff]
  repeat' apply And.intro
  all_goals exact List.mem_toFinset.mpr (List.mem_map_of_mem (by decide))

theorem keptL4 (V : Vals) (r : Ref sig .tc) (hr : r ∉ WL4) : after (opsL4 (F := Ideal)) V (dr r) = V (dr r) :=
  after_of_writes_sub _ V wL4 hr

abbrev WPool : List (Ref sig .tc) :=
  [
    main_cst_35, main_v179, main_cst_36, main_v180, main_v181, main_v182, main_cst_37, main_v183, main_v184, main_v185,
    main_cst_38, main_call9_v0, main_call9_v1, main_v186, main_v187, main_v188, main_v189 ]

theorem wPool : (opsPool (F := Ideal)).Forall fun op => op.writes ⊆ (WPool.map (Proc.devRef (τ := τ) Proc.tc)).toFinset := by
  simp only [opsPool, List.Forall, nullary_writes, unary_writes, binary_writes, ternary_writes, reshape_writes, Finset.singleton_subset_iff]
  repeat' apply And.intro
  all_goals exact List.mem_toFinset.mpr (List.mem_map_of_mem (by decide))

theorem keptPool (V : Vals) (r : Ref sig .tc) (hr : r ∉ WPool) : after (opsPool (F := Ideal)) V (dr r) = V (dr r) :=
  after_of_writes_sub _ V wPool hr

abbrev WHead : List (Ref sig .tc) :=
  [
    main_v190, main_v191, main_v192, main_v193, main_v194, main_call10_cst, main_call10_v0, main_v195, main_v196, main_v197,
    main_v198, main_v199, main_v200 ]

theorem wHead : (opsHead (F := Ideal)).Forall fun op => op.writes ⊆ (WHead.map (Proc.devRef (τ := τ) Proc.tc)).toFinset := by
  simp only [opsHead, List.Forall, nullary_writes, unary_writes, binary_writes, ternary_writes, reshape_writes, Finset.singleton_subset_iff]
  repeat' apply And.intro
  all_goals exact List.mem_toFinset.mpr (List.mem_map_of_mem (by decide))

theorem keptHead (V : Vals) (r : Ref sig .tc) (hr : r ∉ WHead) : after (opsHead (F := Ideal)) V (dr r) = V (dr r) :=
  after_of_writes_sub _ V wHead hr

def s1 (V : Vals) : Vals := after (opsGraph (F := Ideal)) V
def s2 (V : Vals) : Vals := after (opsL1 (F := Ideal)) (s1 V)
def s3 (V : Vals) : Vals := after (opsL2 (F := Ideal)) (s2 V)
def s4 (V : Vals) : Vals := after (opsL3 (F := Ideal)) (s3 V)
def s5 (V : Vals) : Vals := after (opsL4 (F := Ideal)) (s4 V)
def s6 (V : Vals) : Vals := after (opsPool (F := Ideal)) (s5 V)

theorem after_ops (V : Vals) : after (ops (F := Ideal)) V = after (opsHead (F := Ideal)) (s6 V) := by
  show after ((((((opsGraph ++ opsL1) ++ opsL2) ++ opsL3) ++ opsL4) ++ opsPool) ++ opsHead) V = _
  rw [after_app, after_app, after_app, after_app, after_app, after_app]
  rfl

theorem arg_at1 (V : Vals) (r : Ref sig .tc) (h0 : r ∉ WGraph) : s1 V (dr r) = V (dr r) := keptGraph V r h0
theorem arg_at2 (V : Vals) (r : Ref sig .tc) (h0 : r ∉ WGraph) (h1 : r ∉ WL1) : s2 V (dr r) = V (dr r) :=
  (keptL1 _ r h1).trans (arg_at1 V r h0)
theorem arg_at3 (V : Vals) (r : Ref sig .tc) (h0 : r ∉ WGraph) (h1 : r ∉ WL1) (h2 : r ∉ WL2) : s3 V (dr r) = V (dr r) :=
  (keptL2 _ r h2).trans (arg_at2 V r h0 h1)
theorem arg_at4 (V : Vals) (r : Ref sig .tc) (h0 : r ∉ WGraph) (h1 : r ∉ WL1) (h2 : r ∉ WL2) (h3 : r ∉ WL3) :
    s4 V (dr r) = V (dr r) :=
  (keptL3 _ r h3).trans (arg_at3 V r h0 h1 h2)
theorem arg_at5 (V : Vals) (r : Ref sig .tc) (h0 : r ∉ WGraph) (h1 : r ∉ WL1) (h2 : r ∉ WL2) (h3 : r ∉ WL3) (h4 : r ∉ WL4) :
    s5 V (dr r) = V (dr r) :=
  (keptL4 _ r h4).trans (arg_at4 V r h0 h1 h2 h3)
theorem arg_at6 (V : Vals) (r : Ref sig .tc) (h0 : r ∉ WGraph) (h1 : r ∉ WL1) (h2 : r ∉ WL2) (h3 : r ∉ WL3) (h4 : r ∉ WL4)
    (h5 : r ∉ WPool) : s6 V (dr r) = V (dr r) :=
  (keptPool _ r h5).trans (arg_at5 V r h0 h1 h2 h3 h4)
theorem arg_at7 (V : Vals) (r : Ref sig .tc) (h0 : r ∉ WGraph) (h1 : r ∉ WL1) (h2 : r ∉ WL2) (h3 : r ∉ WL3) (h4 : r ∉ WL4)
    (h5 : r ∉ WPool) (h6 : r ∉ WHead) : after (ops (F := Ideal)) V (dr r) = V (dr r) := by
  rw [after_ops]
  exact (keptHead _ r h6).trans (arg_at6 V r h0 h1 h2 h3 h4 h5)

theorem after_take_drop (n : Nat) (l : List (HloOp τ sig (Elt Ideal))) (V : Vals) :
    after l V = after (l.drop n) (after (l.take n) V) := by
  rw [← after_app, List.take_append_drop]

abbrev gA : List (HloOp τ sig (Elt Ideal)) := (opsGraph (F := Ideal)).take 7
abbrev gB : List (HloOp τ sig (Elt Ideal)) := (opsGraph (F := Ideal)).drop 7

theorem gA_read (V : Vals) :
    after gA V (dr main_v3) = Cert.Stages.endpoints0 (F := Ideal) (V (dr main_arg1))
    ∧ after gA V (dr main_v6) = Cert.Stages.endpoints1 (F := Ideal) (V (dr main_arg1)) := by
  simp only [gA, opsGraph, List.take_succ_cons, List.take_zero]
  constructor
  · after_results
    rfl
  · after_results
    rfl

attribute [local irreducible] Host.scatterAdd Host.gather Host.powf in
set_option maxHeartbeats 4000000 in
theorem gB_read (W : Vals) :
    after gB W (dr main_v3) = W (dr main_v3) ∧ after gB W (dr main_v6) = W (dr main_v6)
    ∧ after gB W (dr main_v30) = Cert.Stages.edgeWeight (F := Ideal) (W (dr main_v3)) (W (dr main_v6)) := by
  simp only [gB, opsGraph, List.drop_succ_cons, List.drop_zero]
  refine ⟨?_, ?_, ?_⟩
  · after_results_simp
  · after_results_simp
  · after_results_simp
    rfl

theorem graph_read (V : Vals) :
    after (opsGraph (F := Ideal)) V (dr main_v3) = Cert.Stages.endpoints0 (F := Ideal) (V (dr main_arg1))
    ∧ after (opsGraph (F := Ideal)) V (dr main_v6) = Cert.Stages.endpoints1 (F := Ideal) (V (dr main_arg1))
    ∧ after (opsGraph (F := Ideal)) V (dr main_v30)
        = Cert.Stages.edgeWeight (F := Ideal) (Cert.Stages.endpoints0 (F := Ideal) (V (dr main_arg1))) (Cert.Stages.endpoints1 (F := Ideal) (V (dr main_arg1))) := by
  rw [after_take_drop 7 (opsGraph (F := Ideal)) V]
  obtain ⟨a3, a6⟩ := gA_read V
  obtain ⟨b3, b6, b30⟩ := gB_read (after gA V)
  exact ⟨b3.trans a3, b6.trans a6, b30.trans (congrArg₂ (Cert.Stages.edgeWeight (F := Ideal)) a3 a6)⟩

attribute [local irreducible] Cert.Stages.aggregate Cert.Stages.project1 Host.reduceAdd Host.divf Host.rsqrt in
set_option maxHeartbeats 4000000 in
theorem l1_read (V : Vals) :
    after (opsL1 (F := Ideal)) V (dr main_v67)
      = Cert.Stages.layer (F := Ideal) (V (dr main_v3)) (V (dr main_v6)) (V (dr main_v30))
          (Cert.Stages.project1 (F := Ideal) (V (dr main_arg0)) (V (dr main_arg3))) (V (dr main_arg4)) (V (dr main_arg5)) (V (dr main_arg6)) := by
  unfold opsL1
  after_results_simp
  rw [← Cert.Stages.wrap.eq_1, ← Cert.Stages.project1.eq_1, ← Cert.Stages.aggregate.eq_1]
  rfl

attribute [local irreducible] Cert.Stages.aggregate Cert.Stages.project Host.reduceAdd Host.divf Host.rsqrt in
set_option maxHeartbeats 4000000 in
theorem l2_read (V : Vals) :
    after (opsL2 (F := Ideal)) V (dr main_v104)
      = Cert.Stages.layer (F := Ideal) (V (dr main_v3)) (V (dr main_v6)) (V (dr main_v30))
          (Cert.Stages.project (F := Ideal) (V (dr main_v67)) (V (dr main_arg7))) (V (dr main_arg8)) (V (dr main_arg9)) (V (dr main_arg10)) := by
  unfold opsL2
  after_results_simp
  rw [← Cert.Stages.wrap.eq_1, ← Cert.Stages.project.eq_1, ← Cert.Stages.aggregate.eq_1]
  rfl

attribute [local irreducible] Cert.Stages.aggregate Cert.Stages.project Host.reduceAdd Host.divf Host.rsqrt in
set_option maxHeartbeats 4000000 in
theorem l3_read (V : Vals) :
    after (opsL3 (F := Ideal)) V (dr main_v141)
      = Cert.Stages.layer (F := Ideal) (V (dr main_v3)) (V (dr main_v6)) (V (dr main_v30))
          (Cert.Stages.project (F := Ideal) (V (dr main_v104)) (V (dr main_arg11))) (V (dr main_arg12)) (V (dr main_arg13)) (V (dr main_arg14)) := by
  unfold opsL3
  after_results_simp
  rw [← Cert.Stages.wrap.eq_1, ← Cert.Stages.project.eq_1, ← Cert.Stages.aggregate.eq_1]
  rfl

attribute [local irreducible] Cert.Stages.aggregate Cert.Stages.project Host.reduceAdd Host.divf Host.rsqrt in
set_option maxHeartbeats 4000000 in
theorem l4_read (V : Vals) :
    after (opsL4 (F := Ideal)) V (dr main_v178)
      = Cert.Stages.layer (F := Ideal) (V (dr main_v3)) (V (dr main_v6)) (V (dr main_v30))
          (Cert.Stages.project (F := Ideal) (V (dr main_v141)) (V (dr main_arg15))) (V (dr main_arg16)) (V (dr main_arg17)) (V (dr main_arg18)) := by
  unfold opsL4
  after_results_simp
  rw [← Cert.Stages.wrap.eq_1, ← Cert.Stages.project.eq_1, ← Cert.Stages.aggregate.eq_1]
  rfl

theorem pool_read (V : Vals) :
    after (opsPool (F := Ideal)) V (dr main_v189)
      = Cert.Stages.graphMeanOf (F := Ideal) (Cert.Stages.graphSum (F := Ideal) (V (dr main_arg2)) (V (dr main_v178))) (Cert.Stages.count (F := Ideal) (V (dr main_arg2))) := by
  unfold opsPool
  after_results_simp
  rfl

theorem head_read (V : Vals) :
    after (opsHead (F := Ideal)) V (dr main_v200)
      = Cert.Stages.head (F := Ideal) (V (dr main_v189)) (V (dr main_arg19)) (V (dr main_arg20)) (V (dr main_arg21)) (V (dr main_arg22)) := by
  unfold opsHead
  after_results_simp
  rfl

def e0 (V : Vals) : Cert.Stages.TI Ideal S850000 := Cert.Stages.endpoints0 (F := Ideal) (V (dr main_arg1))
def e1 (V : Vals) : Cert.Stages.TI Ideal S850000 := Cert.Stages.endpoints1 (F := Ideal) (V (dr main_arg1))
def ew (V : Vals) : Cert.Stages.TF Ideal S850000 := Cert.Stages.edgeWeight (F := Ideal) (e0 V) (e1 V)
def x1 (V : Vals) : Cert.Stages.TF Ideal S50000x64 :=
  Cert.Stages.layer (F := Ideal) (e0 V) (e1 V) (ew V) (Cert.Stages.project1 (F := Ideal) (V (dr main_arg0)) (V (dr main_arg3)))
    (V (dr main_arg4)) (V (dr main_arg5)) (V (dr main_arg6))
def x2 (V : Vals) : Cert.Stages.TF Ideal S50000x64 :=
  Cert.Stages.layer (F := Ideal) (e0 V) (e1 V) (ew V) (Cert.Stages.project (F := Ideal) (x1 V) (V (dr main_arg7)))
    (V (dr main_arg8)) (V (dr main_arg9)) (V (dr main_arg10))
def x3 (V : Vals) : Cert.Stages.TF Ideal S50000x64 :=
  Cert.Stages.layer (F := Ideal) (e0 V) (e1 V) (ew V) (Cert.Stages.project (F := Ideal) (x2 V) (V (dr main_arg11)))
    (V (dr main_arg12)) (V (dr main_arg13)) (V (dr main_arg14))
def x4 (V : Vals) : Cert.Stages.TF Ideal S50000x64 :=
  Cert.Stages.layer (F := Ideal) (e0 V) (e1 V) (ew V) (Cert.Stages.project (F := Ideal) (x3 V) (V (dr main_arg15)))
    (V (dr main_arg16)) (V (dr main_arg17)) (V (dr main_arg18))
def pooled (V : Vals) : Cert.Stages.TF Ideal S64x64 :=
  Cert.Stages.graphMeanOf (F := Ideal) (Cert.Stages.graphSum (F := Ideal) (V (dr main_arg2)) (x4 V)) (Cert.Stages.count (F := Ideal) (V (dr main_arg2)))

theorem gr_at1 (V : Vals) : s1 V (dr main_v3) = e0 V ∧ s1 V (dr main_v6) = e1 V ∧ s1 V (dr main_v30) = ew V :=
  graph_read V
theorem gr_at2 (V : Vals) : s2 V (dr main_v3) = e0 V ∧ s2 V (dr main_v6) = e1 V ∧ s2 V (dr main_v30) = ew V :=
  ⟨(keptL1 _ main_v3 (by decide)).trans (gr_at1 V).1, (keptL1 _ main_v6 (by decide)).trans (gr_at1 V).2.1,
    (keptL1 _ main_v30 (by decide)).trans (gr_at1 V).2.2⟩
theorem gr_at3 (V : Vals) : s3 V (dr main_v3) = e0 V ∧ s3 V (dr main_v6) = e1 V ∧ s3 V (dr main_v30) = ew V :=
  ⟨(keptL2 _ main_v3 (by decide)).trans (gr_at2 V).1, (keptL2 _ main_v6 (by decide)).trans (gr_at2 V).2.1,
    (keptL2 _ main_v30 (by decide)).trans (gr_at2 V).2.2⟩
theorem gr_at4 (V : Vals) : s4 V (dr main_v3) = e0 V ∧ s4 V (dr main_v6) = e1 V ∧ s4 V (dr main_v30) = ew V :=
  ⟨(keptL3 _ main_v3 (by decide)).trans (gr_at3 V).1, (keptL3 _ main_v6 (by decide)).trans (gr_at3 V).2.1,
    (keptL3 _ main_v30 (by decide)).trans (gr_at3 V).2.2⟩

theorem x_at2 (V : Vals) : s2 V (dr main_v67) = x1 V := by
  rw [s2, l1_read, (gr_at1 V).1, (gr_at1 V).2.1, (gr_at1 V).2.2, arg_at1 V main_arg0 (by decide), arg_at1 V main_arg3 (by decide),
    arg_at1 V main_arg4 (by decide), arg_at1 V main_arg5 (by decide), arg_at1 V main_arg6 (by decide)]
  rfl
theorem x_at3 (V : Vals) : s3 V (dr main_v104) = x2 V := by
  rw [s3, l2_read, (gr_at2 V).1, (gr_at2 V).2.1, (gr_at2 V).2.2, x_at2, arg_at2 V main_arg7 (by decide) (by decide),
    arg_at2 V main_arg8 (by decide) (by decide), arg_at2 V main_arg9 (by decide) (by decide), arg_at2 V main_arg10 (by decide) (by decide)]
  rfl
theorem x_at4 (V : Vals) : s4 V (dr main_v141) = x3 V := by
  rw [s4, l3_read, (gr_at3 V).1, (gr_at3 V).2.1, (gr_at3 V).2.2, x_at3, arg_at3 V main_arg11 (by decide) (by decide) (by decide),
    arg_at3 V main_arg12 (by decide) (by decide) (by decide), arg_at3 V main_arg13 (by decide) (by decide) (by decide),
    arg_at3 V main_arg14 (by decide) (by decide) (by decide)]
  rfl
theorem x_at5 (V : Vals) : s5 V (dr main_v178) = x4 V := by
  rw [s5, l4_read, (gr_at4 V).1, (gr_at4 V).2.1, (gr_at4 V).2.2, x_at4, arg_at4 V main_arg15 (by decide) (by decide) (by decide) (by decide),
    arg_at4 V main_arg16 (by decide) (by decide) (by decide) (by decide), arg_at4 V main_arg17 (by decide) (by decide) (by decide) (by decide),
    arg_at4 V main_arg18 (by decide) (by decide) (by decide) (by decide)]
  rfl

theorem p_at6 (V : Vals) : s6 V (dr main_v189) = pooled V := by
  rw [s6, pool_read, arg_at5 V main_arg2 (by decide) (by decide) (by decide) (by decide) (by decide), x_at5]
  rfl

theorem value (m : (ℓ : Loc nD τ sig) → Buf (Elt Ideal) ℓ) (c : Dev nD) :
    after (ops (F := Ideal)) (launchContents m c) (dr main_v200) = Cert.Stages.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [after_ops, head_read, p_at6, arg_at6 _ main_arg19 (by decide) (by decide) (by decide) (by decide) (by decide) (by decide),
    arg_at6 _ main_arg20 (by decide) (by decide) (by decide) (by decide) (by decide) (by decide),
    arg_at6 _ main_arg21 (by decide) (by decide) (by decide) (by decide) (by decide) (by decide),
    arg_at6 _ main_arg22 (by decide) (by decide) (by decide) (by decide) (by decide) (by decide)]
  rfl

end Cert.RefRead

end
-- ==== Proof.lean ====
import proofs.«418940_j1529008358070_1_alg».proof.Defs
import proofs.«418940_j1529008358070_1_alg».proof.Proof.Gen.Kernel
import proofs.«418940_j1529008358070_1_alg».proof.Proof.Gen.Kernel.Frame
import proofs.«418940_j1529008358070_1_alg».proof.Proof.Gen.KernelIdeal
import proofs.«418940_j1529008358070_1_alg».proof.Proof.Gen.KernelIdeal.Frame
import proofs.«418940_j1529008358070_1_alg».proof.Proof.Gen.ReferenceIdeal
import proofs.«418940_j1529008358070_1_alg».proof.Proof.Gen.Pre_finite_inputs
import proofs.«418940_j1529008358070_1_alg».proof.Proof.KRun
import proofs.«418940_j1529008358070_1_alg».proof.Proof.KChain
import proofs.«418940_j1529008358070_1_alg».proof.Proof.Bridge
import proofs.«418940_j1529008358070_1_alg».proof.Proof.PreReal
import proofs.«418940_j1529008358070_1_alg».proof.Proof.RefOps
import proofs.«418940_j1529008358070_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

-- no operation of the reference writes an argument
theorem frame_ri : Cert.frame_ReferenceIdeal := fun m ρ _ =>
  (θ_run Cert.ReferenceIdeal.defs _ _).mono
    (fun _ h c => by
      repeat' apply And.intro
      all_goals exact (h c _).trans (Cert.RefRead.arg_at7 _ _ (by decide) (by decide) (by decide) (by decide) (by decide) (by decide) (by decide)))
    (Cert.RefOps.run (F := Ideal) m ρ)

theorem preserves : Cert.preserves_Kernel_KernelIdeal := trivial

-- the reference's network function of the arguments is, on real arguments, the kernel side's
theorem algebraic : Cert.algebraic_KernelIdeal_ReferenceIdeal := by
  intro m ρ m' ρ' hpre hagree
  refine ⟨fun c => Cert.KernelIdeal.Gen.W29 (F := Ideal) m ρ c (Proc.devRef .tc Cert.KernelIdeal.main_v133), Cert.KRun.run (F := Ideal) m ρ, ?_⟩
  refine (θ_run Cert.ReferenceIdeal.defs _ _).mono (fun _ h c => ⟨?_, by
      repeat' apply And.intro
      all_goals exact (h c _).trans (Cert.RefRead.arg_at7 _ _ (by decide) (by decide) (by decide) (by decide) (by decide) (by decide) (by decide))⟩)
    (Cert.RefOps.run (F := Ideal) m' ρ')
  obtain ⟨r0, r3, r4, r5, r6, r7, r8, r9, r10, r11, r12, r13, r14, r15, r16, r17, r18⟩ := Cert.PreReal.of_pre m hpre c
  obtain ⟨a0, a1, a2, a3, a4, a5, a6, a7, a8, a9, a10, a11, a12, a13, a14, a15, a16, a17, a18, a19, a20, a21, a22⟩ := hagree c
  refine (h c Cert.ReferenceIdeal.main_v200).trans ((Cert.RefRead.value m' c).trans ?_)
  rw [a0, a1, a2, a3, a4, a5, a6, a7, a8, a9, a10, a11, a12, a13, a14, a15, a16, a17, a18, a19, a20, a21, a22]
  exact ((Cert.KChain.value m ρ c).trans
    (Cert.Bridge.net_eq _ _ _ _ _ _ _ _ _ _ _ _ _ _ _ _ _ _ _ _ _ _ _ r0 r3 r4 r5 r6 r7 r8 r9 r10 r11 r12 r13 r14 r15 r16 r17 r18)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
